-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg14 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x128 .f32) (main_arg1 : FVec F S600000x128 .f32) (main_arg2 : IVec S600000 32) (main_arg3 : IVec S600000 32) (main_arg4 : IVec S50000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S600000x1 : Shape := ⟨2, ![600000, 1]⟩
abbrev S1x128 : Shape := ⟨2, ![1, 128]⟩
abbrev S6000x128 : Shape := ⟨2, ![6000, 128]⟩
abbrev S10000x128 : Shape := ⟨2, ![10000, 128]⟩
abbrev S50000x1 : Shape := ⟨2, ![50000, 1]⟩
abbrev S1x1 : Shape := ⟨2, ![1, 1]⟩
abbrev S512x1 : Shape := ⟨2, ![512, 1]⟩
abbrev S2000x128 : Shape := ⟨2, ![2000, 128]⟩
abbrev S2000x1 : Shape := ⟨2, ![2000, 1]⟩
abbrev S512x128 : Shape := ⟨2, ![512, 128]⟩
abbrev S2000x512 : Shape := ⟨2, ![2000, 512]⟩
abbrev S512 : Shape := ⟨1, ![512]⟩

abbrev nBuf : Space → Nat
  | .hbm => 55
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S1x128, .f32⟩
  | .hbm, ⟨25, _⟩ => ⟨S600000x128, .f32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x1, .i32⟩
  | .hbm, ⟨52, _⟩ => ⟨S1x1, .f32⟩
  | .hbm, ⟨53, _⟩ => ⟨S512x1, .f32⟩
  | .hbm, ⟨54, _⟩ => ⟨S512, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S1x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S6000x128, .f32⟩
  | .local _ .vmem, ⟨17, _⟩ => ⟨S6000x128, .f32⟩
  | .local _ .vmem, ⟨18, _⟩ => ⟨S6000x128, .f32⟩
  | .local _ .vmem, ⟨19, _⟩ => ⟨S6000x128, .f32⟩
  | .local _ .vmem, ⟨20, _⟩ => ⟨S128x128, .f32⟩
  | .local _ .vmem, ⟨21, _⟩ => ⟨S1x128, .f32⟩
  | .local _ .vmem, ⟨22, _⟩ => ⟨S6000x128, .f32⟩
  | .local _ .vmem, ⟨23, _⟩ => ⟨S6000x128, .f32⟩
  | .local _ .vmem, ⟨24, _⟩ => ⟨S6000x128, .f32⟩
  | .local _ .vmem, ⟨25, _⟩ => ⟨S6000x128, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S2000x128, .f32⟩
  | .local _ .vmem, ⟨33, _⟩ => ⟨S2000x128, .f32⟩
  | .local _ .vmem, ⟨34, _⟩ => ⟨S2000x1, .i32⟩
  | .local _ .vmem, ⟨35, _⟩ => ⟨S2000x1, .i32⟩
  | .local _ .vmem, ⟨36, _⟩ => ⟨S128x1, .f32⟩
  | .local _ .vmem, ⟨37, _⟩ => ⟨S1x1, .f32⟩
  | .local _ .vmem, ⟨38, _⟩ => ⟨S512x1, .f32⟩
  | .local _ .vmem, ⟨39, _⟩ => ⟨S512x128, .f32⟩
  | .local _ .vmem, ⟨40, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_scratch0 : Ref sig .tc := ⟨.vmem, 39, rfl⟩
abbrev cc4_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S6000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v25 : BitVec 1 := Scalar.cmpi .eq arg0 c24_i32
  let v26 : BitVec 32 := Scalar.extui v25
  let c0_i32_14 : BitVec 32 := 0#32
  let v27 : BitVec 1 := Scalar.cmpi .ne v26 c0_i32_14
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  shapeCasts_S6000x128_S6000x128 : S6000x128.ShapeCasts S6000x128
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  shapeCasts_S50000_S50000x1 : S50000.ShapeCasts S50000x1
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S512x1_S512x128 : S512x1.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  dot_S2000x512_S2000x128_S512x128_0_0_1_1_n_n_wf : DotDims.WF S2000x512 S2000x128 S512x128 [0] [0] [1] [1] [] []
  dot_S2000x512_S2000x1_S512x1_0_0_1_1_n_n_wf : DotDims.WF S2000x512 S2000x1 S512x1 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S600000x128.size a
  hwx0_4 : ∀ i : grid0.Coords, EltTy.bits .f32 = 32 ∨ (Rect.block (s := S600000x128) S6000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x128.size a ≤ S600000x128.size a
  hwx0_5 : ∀ i : grid0.Coords, EltTy.bits .f32 = 32 ∨ (Rect.block (s := S600000x128) S6000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .f32 = 32 ∨ (Rect.block (s := S600000x128) S6000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x128.size a ≤ S600000x128.size a
  hwx2_4 : ∀ i : grid2.Coords, EltTy.bits .f32 = 32 ∨ (Rect.block (s := S600000x128) S6000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6000x128.size a ≤ S600000x128.size a
  hwx2_5 : ∀ i : grid2.Coords, EltTy.bits .f32 = 32 ∨ (Rect.block (s := S600000x128) S6000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S512x1.size a
  hwx4_4 : ∀ i : grid4.Coords, EltTy.bits .f32 = 32 ∨ (Rect.block (s := S512x1) S512x1.size (cc4_transform_4 i) (hinb4_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg1) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S6000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S6000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8_0) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22_0) S6000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22_1) S6000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v30) S512x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S600000x1 : Shape := ⟨2, ![600000, 1]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S600000x128, .f32⟩
  | .hbm, ⟨16, _⟩ => ⟨S1x128, .f32⟩
  | .hbm, ⟨17, _⟩ => ⟨S600000x128, .f32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S600000x128, .f32⟩
  | .hbm, ⟨47, _⟩ => ⟨S1x128, .f32⟩
  | .hbm, ⟨48, _⟩ => ⟨S600000x128, .f32⟩
  | .hbm, ⟨49, _⟩ => ⟨S600000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S512, .f32⟩
  | .hbm, ⟨81, _⟩ => ⟨S50000x1, .i32⟩
  | .hbm, ⟨82, _⟩ => ⟨S512, .f32⟩
  | .hbm, ⟨83, _⟩ => ⟨S_, .f32⟩
  | .hbm, ⟨84, _⟩ => ⟨S512x128, .f32⟩
  | .hbm, ⟨85, _⟩ => ⟨S50000x1, .i32⟩
  | .hbm, ⟨86, _⟩ => ⟨S512x128, .f32⟩
  | .hbm, ⟨87, _⟩ => ⟨S_, .f32⟩
  | .hbm, ⟨88, _⟩ => ⟨S512, .f32⟩
  | .hbm, ⟨89, _⟩ => ⟨S512, .f32⟩
  | .hbm, ⟨90, _⟩ => ⟨S512x1, .f32⟩
  | .hbm, ⟨91, _⟩ => ⟨S512x128, .f32⟩
  | .hbm, ⟨92, _⟩ => ⟨S512x128, .f32⟩
  | .hbm, ⟨93, _⟩ => ⟨S512x1, .f32⟩
  | .hbm, ⟨94, _⟩ => ⟨S1x1, .f32⟩
  | .hbm, ⟨95, _⟩ => ⟨S512x1, .f32⟩
  | .hbm, ⟨96, _⟩ => ⟨S512x1, .f32⟩
  | .hbm, ⟨97, _⟩ => ⟨S512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_1 : Ref sig .tc := ⟨.hbm, 50, rfl⟩
abbrev main_v24 : Ref sig .tc := ⟨.hbm, 51, rfl⟩
abbrev main_v25 : Ref sig .tc := ⟨.hbm, 52, rfl⟩
abbrev main_c_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v39 : Ref sig .tc := ⟨.hbm, 76, rfl⟩
abbrev main_cst_4 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_6 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_7 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KI.Reg0.lean ====
import proofs.«403104_j60447369724153_2_alg».proof.Proof.Gen.KernelIdeal.Launch
import proofs.«403104_j60447369724153_2_alg».proof.Proof.Gen.KernelIdeal.Skeleton
import proofs.«403104_j60447369724153_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the arrays' entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S6000x128 := Rect.unit (s := S6000x128) ![0, 0] S6000x128.size inb_S6000x128_S6000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- e·W + b on one block of rows. -/
def out0_4 (x0 : Vec F S6000x128 .f32) (x2 : Vec F S128x128 .f32) (x3 : Vec F S1x128 .f32) : Vec F S6000x128 .f32 :=
  View.canon [⟨r0, k0_pay1 (View.ld x0 r0) (View.ld x2 rW0) (View.ld x3 rB0)⟩]

/-- g + (e·W + b) on one block of rows. -/
def out0_5 (x0 x1 : Vec F S6000x128 .f32) (x2 : Vec F S128x128 .f32) (x3 : Vec F S1x128 .f32) : Vec F S6000x128 .f32 :=
  View.canon [⟨r0, k0_pay2 (View.ld x0 r0) (View.ld x2 rW0) (View.ld x3 rB0) (View.ld x1 r0)⟩]

theorem cover0 (p0 : Vec F S6000x128 .f32) (y : S6000x128.Idx) :
    ∃ pc ∈ ([⟨r0, p0⟩] : List (View.Piece (Elt F) S6000x128 .f32)), y ∈ pc.1.set :=
  View.cover_of_tiled [⟨r0, p0⟩] S6000x128.size (by rfl) y

/-- The body on whole blocks: the inputs come back unchanged, the outputs are `out0_4` and `out0_5` of the inputs. -/
theorem sound_kernel0 (c : Dev nD) (E : Set ℕ) (i : grid0.Coords)
    (arg1 : Memref sig .tc .vmem S6000x128 .f32) (harg1 : arg1.IsWhole) (arg2 : Memref sig .tc .vmem S6000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S6000x128 .f32) (harg5 : arg5.IsWhole) (arg6 : Memref sig .tc .vmem S6000x128 .f32) (harg6 : arg6.IsWhole)
    (x0 x1 : Vec F S6000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2 x3)
            ∗ owns (c : Thread nD τ) arg6 fullShare (out0_5 x0 x1 x2 x3)) -∗ K ⟨⟩))
      ⊢ wp frame (wpE (defs₀ (F := F)) Variants.none c none) E
          (cc0__edge_kernel i arg1 harg1 arg2 harg2 arg3 harg3 arg4 harg4 arg5 harg5 arg6 harg6) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; swap; isplitl [H1]; swap; isplitl [H2]; swap; isplitl [H3]; swap; isplitl [H4]; swap
  all_goals iexists _; isplitr; swap; iassumption; ipureintro
  all_goals first | exact View.read_writes_eq_canon _ _ _ (cover0 _) | rfl

/-- The region's proof data: after the body every input block is as it was and the output blocks are `out0_4`, `out0_5` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- True because the body returns every input block unchanged. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

/-- At any point the inputs are their blocks, so the body's triple applies; the rest passes through. -/
theorem body_obligation0 (c : Dev nD) : BodyObligation (dat0 (F := F) V c) (defs₀ (F := F)) Variants.none () Set.univ := fun t => by
  rw [bigSep_W0, bigSep_W0]
  dsimp only
  simp only [before0_0, before0_1, before0_2, before0_3]
  show _ ⊢ wp _ _ _ (bodyAt0 t) _
  unfold bodyAt0
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  iframe H0 H1 H2 H3
  isplitl [H4]; · iexists _; iexact H4
  isplitl [H5]; · iexists _; iexact H5
  iintro ⟨H0, H1, H2, H3, H4, H5⟩
  dsimp only [dat0]
  iframe H0 H1 H2 H3 H4 H5 HΦ
  iexact Ho

end Cert.KernelIdeal.Hand

end
-- ==== Proof.KI.Reg1.lean ====
import proofs.«403104_j60447369724153_2_alg».proof.Proof.Gen.KernelIdeal.Launch
import proofs.«403104_j60447369724153_2_alg».proof.Proof.Gen.KernelIdeal.Skeleton
import proofs.«403104_j60447369724153_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r1 : Rect S10000x128 := Rect.unit (s := S10000x128) ![0, 0] S10000x128.size inb_S10000x128_S10000x128_0_0
abbrev r1W : Rect S128x128 := Rect.unit (s := S128x128) ![0, 0] S128x128.size inb_S128x128_S128x128_0_0
abbrev r1b : Rect S1x128 := Rect.unit (s := S1x128) ![0, 0] S1x128.size inb_S1x128_S1x128_0_0

-- y * logistic y with y = x0·x1 + x2, the row x2 added to every row: the node layer on a block of rows.
def out1_3 (x0 : Vec F S10000x128 .f32) (x1 : Vec F S128x128 .f32) (x2 : Vec F S1x128 .f32) : Vec F S10000x128 .f32 :=
  View.canon [⟨r1, k1_pay1 (View.ld x0 r1) (View.ld x1 r1W) (View.ld x2 r1b)⟩]

-- The node layer's body under a frame P ∗ O: the three blocks it reads are kept and the fourth becomes out1_3 of them. Regions 1 and 3 both run it.
theorem node_body (c : Dev nD) (i : grid1.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    {D0 D1 D2 D3 : Type} (b0 : D0 → Vec F S10000x128 .f32) (b1 : D1 → Vec F S128x128 .f32) (b2 : D2 → Vec F S1x128 .f32) (b3 : D3 → Vec F S10000x128 .f32)
    (x0 : Vec F S10000x128 .f32) (x1 : Vec F S128x128 .f32) (x2 : Vec F S1x128 .f32) (y : Vec F S10000x128 .f32)
    (e0 : ∀ d, b0 d = x0) (e1 : ∀ d, b1 d = x1) (e2 : ∀ d, b2 d = x2) (ey : y = out1_3 x0 x1 x2) (P O : sProp 𝕄) :
    iprop(P ∗ O ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ (cc1__linear_kernel i arg1 harg1 arg2 harg2 arg3 harg3 arg4 harg4) fun _ =>
          iprop(P ∗ O ∗ owns (c : Thread nD τ) arg1 fullShare x0 ∗ owns (c : Thread nD τ) arg2 fullShare x1
            ∗ owns (c : Thread nD τ) arg3 fullShare x2 ∗ owns (c : Thread nD τ) arg4 fullShare y) := by
  subst ey
  simp only [e0, e1, e2, cc1__linear_kernel_eq_skeleton]; unfold cc1__linear_kernel_skel owns
  iintro ⟨HP, HO, ⟨%_, %f0, %hf0, H0⟩, ⟨%_, %f1, %hf1, H1⟩, ⟨%_, %f2, %hf2, H2⟩, ⟨%_, %f3, -, H3⟩⟩
  subst hf0 hf1 hf2
  sl_exec
  sl_step
  iframe HP HO
  isplitl [H0]; swap; isplitl [H1]; swap; isplitl [H2]; swap
  all_goals iexists _; isplitr; swap; iassumption; ipureintro
  all_goals first | exact View.read_writes_eq_canon _ _ _ (View.cover_of_tiled _ S10000x128.size (by rfl)) | rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (t : Fin cfg1.N) (w : Fin cfg1.W) (hw : (cfg1.win w).isOut = false) (d) :
    (dat1 V c).before w t d = (dat1 V c).after w t :=
  match w, hw with
  | 0, _ | 1, _ | 2, _ => (dat1 V c).before_in_eq_fetched _ rfl (fun _ => rfl) (fun _ _ _ => rfl) (fun _ => rfl) t d
  | 3, h => absurd h (by decide)

theorem body_obligation1 (c : Dev nD) : BodyObligation (dat1 (F := F) V c) (defs₀ (F := F)) Variants.none () Set.univ := fun t => by
  rw [bigSep_W1, bigSep_W1]
  exact node_body c (grid1.coords t) _ (hstage1_0 _) _ (hstage1_1 _) _ (hstage1_2 _) _ (hstage1_3 _) _ _ _ _ _ _ _ _
    (before1 V c t 0 rfl) (before1 V c t 1 rfl) (before1 V c t 2 rfl) (by dsimp only [dat1]) _ _

end Cert.KernelIdeal.Hand

end
-- ==== Proof.KI.Reg2.lean ====
import proofs.«403104_j60447369724153_2_alg».proof.Proof.KI.Reg0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Region 2's payloads are region 0's behind a reshape to the same shape, -/
theorem k2_pay1_eq : k2_pay1 (F := F) = k0_pay1 (F := F) := by
  funext v0 v2 v4; unfold k2_pay1 k0_pay1; simp only [shapeCast_self]
theorem k2_pay2_eq : k2_pay2 (F := F) = k0_pay2 (F := F) := by
  funext v0 v2 v4 v9; unfold k2_pay2 k0_pay2; rw [k2_pay1_eq]

/-- so the two regions run one body. -/
theorem cc2_eq_cc0 : cc2__edge_kernel (F := F) = cc0__edge_kernel (F := F) := by
  rw [cc2__edge_kernel_eq_skeleton, cc0__edge_kernel_eq_skeleton]
  unfold cc2__edge_kernel_skel cc0__edge_kernel_skel
  rw [k2_pay1_eq, k2_pay2_eq]

/-- Window `w`'s block at point `t` of the arrays' entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: region 0's, over this region's arrays. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out0_4 (iblk2 V c 0 t) (iblk2 V c 2 t) (iblk2 V c 3 t)
    | ⟨5, _⟩ => out0_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  dsimp only
  simp only [before2_0, before2_1, before2_2, before2_3]
  show _ ⊢ wp _ _ _ (bodyAt2 t) _
  unfold bodyAt2
  rw [cc2_eq_cc0]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk2 V c 0 t) (iblk2 V c 1 t) (iblk2 V c 2 t) (iblk2 V c 3 t) _)
  iframe H0 H1 H2 H3
  isplitl [H4]; · iexists _; iexact H4
  isplitl [H5]; · iexists _; iexact H5
  iintro ⟨H0, H1, H2, H3, H4, H5⟩
  dsimp only [dat2]
  iframe H0 H1 H2 H3 H4 H5 HΦ
  iexact Ho

end Cert.KernelIdeal.Hand

end
-- ==== Proof.KI.Reg3.lean ====
import proofs.«403104_j60447369724153_2_alg».proof.Proof.KI.Reg1

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem before3 (c : Dev nD) (t : Fin cfg3.N) (w : Fin cfg3.W) (hw : (cfg3.win w).isOut = false) (d) :
    (dat3 V c).before w t d = (dat3 V c).after w t :=
  match w, hw with
  | 0, _ | 1, _ | 2, _ => (dat3 V c).before_in_eq_fetched _ rfl (fun _ => rfl) (fun _ _ _ => rfl) (fun _ => rfl) t d
  | 3, h => absurd h (by decide)

-- Region 3 runs region 1's body, on its own windows.
theorem body_obligation3 (c : Dev nD) : BodyObligation (dat3 (F := F) V c) (defs₀ (F := F)) Variants.none () Set.univ := fun t => by
  rw [bigSep_W3, bigSep_W3]
  exact node_body c (grid3.coords t) _ (hstage3_0 _) _ (hstage3_1 _) _ (hstage3_2 _) _ (hstage3_3 _) _ _ _ _ _ _ _ _
    (before3 V c t 0 rfl) (before3 V c t 1 rfl) (before3 V c t 2 rfl) (by dsimp only [dat3]) _ _

end Cert.KernelIdeal.Hand

end
-- ==== Proof.KI.Reg4Runs.lean ====
import proofs.«403104_j60447369724153_2_alg».proof.Proof.Gen.KernelIdeal.Launch
import proofs.«403104_j60447369724153_2_alg».proof.Proof.Gen.KernelIdeal.Skeleton
import proofs.«403104_j60447369724153_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 25 = 0 :=
  (by decide +kernel : ∀ t : Fin grid4.N, cond4_0 (grid4.coords t) ↔ t.val % 25 = 0)

abbrev cond4_1 (i : grid4.Coords) : Prop := k4_cond2 i = 1#1

theorem hcond4_1 : ∀ t : Fin cfg4.N, cond4_1 (grid4.coords t) ↔ t.val % 25 = 24 :=
  (by decide +kernel : ∀ t : Fin grid4.N, cond4_1 (grid4.coords t) ↔ t.val % 25 = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel

theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel

theorem liveAt4_4_C : ∀ t : Fin cfg4.N, ¬cond4_0 (grid4.coords t) → cond4_1 (grid4.coords t) → cfg4.idle 4 (grid4.coords t) = false := by decide +kernel

abbrev VO4_4 : View sig .tc .vmem S512x1 .f32 := (Memref.whole cc4_stg4_0 : Memref sig .tc .vmem S512x1 .f32).view

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x1 .f32 := win4_4.stage (cfg4.slots t 4)
abbrev hs4_4 (t : Fin cfg4.N) : (ms4_4 t).IsWhole := hstage4_4 ((cfg4.slots t 4).cast nbuf4_4)

abbrev scM4_0 : Memref sig .tc .vmem S512x128 .f32 := Memref.whole cc4_scratch0
abbrev scM4_1 : Memref sig .tc .vmem S512x1 .f32 := Memref.whole cc4_scratch1

abbrev VS4_0 : View sig .tc .vmem S512x128 .f32 := scM4_0.view
abbrev VS4_1 : View sig .tc .vmem S512x1 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.Reg4RunA.lean ====
import proofs.«403104_j60447369724153_2_alg».proof.Proof.KI.Reg4Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun4_A (c : Dev nD) (i : grid4.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x1 .f32) (harg7 : arg7.IsWhole) (hc0 : cond4_0 i) (hc1 : ¬cond4_1 i)
    (x0 : Vec F S2000x128 .f32) (x1 : Vec F S2000x1 .i32) (x2 : Vec F S128x1 .f32) (x3 : Vec F S1x1 .f32) :
    Σ' (L4 : List (View.Piece (Elt F) S512x1 .f32)) (LS0 : List (View.Piece (Elt F) S512x128 .f32)), { LS1 : List (View.Piece (Elt F) S512x1 .f32) //
      ∀ (xi4 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_kernel i arg1 harg1 arg2 harg2 arg3 harg3 arg4 harg4 arg5 harg5 arg6 harg6 arg7 harg7) K } := by
  refine ⟨[], ?_, ?_, fun xi4 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]; swap; isplitl [H1]; swap; isplitl [H2]; swap; isplitl [H3]; swap; isplitl [H4]; swap; isplitl [HS0]; swap
    any_goals iexists _
    any_goals first | iassumption | (isplitr; swap; iassumption; ipureintro; exact Memref.IsWhole.read_unread _ _)

end Cert.KernelIdeal.Hand

end
-- ==== Proof.KI.Reg4RunB.lean ====
import proofs.«403104_j60447369724153_2_alg».proof.Proof.KI.Reg4RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun4_B (c : Dev nD) (i : grid4.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x1 .f32) (harg7 : arg7.IsWhole) (hc0 : ¬cond4_0 i) (hc1 : ¬cond4_1 i)
    (x0 : Vec F S2000x128 .f32) (x1 : Vec F S2000x1 .i32) (x2 : Vec F S128x1 .f32) (x3 : Vec F S1x1 .f32) (xs0 : Vec F S512x128 .f32) (xs1 : Vec F S512x1 .f32) :
    Σ' (L4 : List (View.Piece (Elt F) S512x1 .f32)) (LS0 : List (View.Piece (Elt F) S512x128 .f32)), { LS1 : List (View.Piece (Elt F) S512x1 .f32) //
      ∀ (xi4 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_kernel i arg1 harg1 arg2 harg2 arg3 harg3 arg4 harg4 arg5 harg5 arg6 harg6 arg7 harg7) K } := by
  refine ⟨[], ?_, ?_, fun xi4 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]; swap; isplitl [H1]; swap; isplitl [H2]; swap; isplitl [H3]; swap; isplitl [H4]; swap; isplitl [HS0]; swap
    any_goals iexists _
    any_goals first | iassumption | (isplitr; swap; iassumption; ipureintro; exact Memref.IsWhole.read_unread _ _)

end Cert.KernelIdeal.Hand

end
-- ==== Proof.KI.Reg4RunC.lean ====
import proofs.«403104_j60447369724153_2_alg».proof.Proof.KI.Reg4RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun4_C (c : Dev nD) (i : grid4.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x1 .f32) (harg7 : arg7.IsWhole) (hc0 : ¬cond4_0 i) (hc1 : cond4_1 i)
    (x0 : Vec F S2000x128 .f32) (x1 : Vec F S2000x1 .i32) (x2 : Vec F S128x1 .f32) (x3 : Vec F S1x1 .f32) (xs0 : Vec F S512x128 .f32) (xs1 : Vec F S512x1 .f32) :
    Σ' (L4 : List (View.Piece (Elt F) S512x1 .f32)) (LS0 : List (View.Piece (Elt F) S512x128 .f32)), { LS1 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_kernel i arg1 harg1 arg2 harg2 arg3 harg3 arg4 harg4 arg5 harg5 arg6 harg6 arg7 harg7) K } := by
  refine ⟨?_, ?_, ?_, fun E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1)
    sl_step
    iapply Hk
    isplitl [H0]; swap; isplitl [H1]; swap; isplitl [H2]; swap; isplitl [H3]; swap; isplitl [H4]; swap; isplitl [HS0]; swap
    any_goals iexists _
    any_goals first | iassumption | (isplitr; swap; iassumption; ipureintro; exact Memref.IsWhole.read_unread _ _)

end Cert.KernelIdeal.Hand

end
-- ==== Proof.KI.Reg4.lean ====
import proofs.«403104_j60447369724153_2_alg».proof.Proof.KI.Reg4RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid4.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x1 .f32) (harg7 : arg7.IsWhole)

/-- What stores that cover a block leave in it, whatever it held before. -/
def back {s : Shape} {e : EltTy} (v : View sig .tc .vmem s e) (L : List (View.Piece (Elt F) s e)) : Vec F s e :=
  v.read (Elt F) (v.writes (Elt F) v.junk L)

/-- The output block and the two accumulators after the body, in each of its three cases. -/
def outs4_A (hc0 : cond4_0 i) (hc1 : ¬cond4_1 i) (x0 : Vec F S2000x128 .f32) (x1 : Vec F S2000x1 .i32) (x2 : Vec F S128x1 .f32) (x3 : Vec F S1x1 .f32) : Vec F S512x1 .f32 × Vec F S512x128 .f32 × Vec F S512x1 .f32 :=
  let r := kernelRun4_A c i arg1 harg1 arg2 harg2 arg3 harg3 arg4 harg4 arg5 harg5 arg6 harg6 arg7 harg7 hc0 hc1 x0 x1 x2 x3
  (back VO4_4 r.1, back VS4_0 r.2.1, back VS4_1 r.2.2.1)

def outs4_B (hc0 : ¬cond4_0 i) (hc1 : ¬cond4_1 i) (x0 : Vec F S2000x128 .f32) (x1 : Vec F S2000x1 .i32) (x2 : Vec F S128x1 .f32) (x3 : Vec F S1x1 .f32) (xs0 : Vec F S512x128 .f32) (xs1 : Vec F S512x1 .f32) : Vec F S512x1 .f32 × Vec F S512x128 .f32 × Vec F S512x1 .f32 :=
  let r := kernelRun4_B c i arg1 harg1 arg2 harg2 arg3 harg3 arg4 harg4 arg5 harg5 arg6 harg6 arg7 harg7 hc0 hc1 x0 x1 x2 x3 xs0 xs1
  (back VO4_4 r.1, back VS4_0 r.2.1, back VS4_1 r.2.2.1)

def outs4_C (hc0 : ¬cond4_0 i) (hc1 : cond4_1 i) (x0 : Vec F S2000x128 .f32) (x1 : Vec F S2000x1 .i32) (x2 : Vec F S128x1 .f32) (x3 : Vec F S1x1 .f32) (xs0 : Vec F S512x128 .f32) (xs1 : Vec F S512x1 .f32) : Vec F S512x1 .f32 × Vec F S512x128 .f32 × Vec F S512x1 .f32 :=
  let r := kernelRun4_C c i arg1 harg1 arg2 harg2 arg3 harg3 arg4 harg4 arg5 harg5 arg6 harg6 arg7 harg7 hc0 hc1 x0 x1 x2 x3 xs0 xs1
  (back VO4_4 r.1, back VS4_0 r.2.1, back VS4_1 r.2.2.1)

theorem scover4_A_0 (hc0 : cond4_0 i) (hc1 : ¬cond4_1 i)
    (x0 : Vec F S2000x128 .f32) (x1 : Vec F S2000x1 .i32) (x2 : Vec F S128x1 .f32) (x3 : Vec F S1x1 .f32) (y : S512x128.Idx) :
    ∃ pc ∈ (kernelRun4_A c i arg1 harg1 arg2 harg2 arg3 harg3 arg4 harg4 arg5 harg5 arg6 harg6 arg7 harg7 hc0 hc1 x0 x1 x2 x3).2.1, y ∈ pc.1.set :=
  View.cover_of_tiledL _ S512x128.size (by sl_kernel_rfl) y

theorem scover4_A_1 (hc0 : cond4_0 i) (hc1 : ¬cond4_1 i)
    (x0 : Vec F S2000x128 .f32) (x1 : Vec F S2000x1 .i32) (x2 : Vec F S128x1 .f32) (x3 : Vec F S1x1 .f32) (y : S512x1.Idx) :
    ∃ pc ∈ (kernelRun4_A c i arg1 harg1 arg2 harg2 arg3 harg3 arg4 harg4 arg5 harg5 arg6 harg6 arg7 harg7 hc0 hc1 x0 x1 x2 x3).2.2.1, y ∈ pc.1.set :=
  View.cover_of_tiledL _ S512x1.size (by sl_kernel_rfl) y

theorem scover4_B_0 (hc0 : ¬cond4_0 i) (hc1 : ¬cond4_1 i)
    (x0 : Vec F S2000x128 .f32) (x1 : Vec F S2000x1 .i32) (x2 : Vec F S128x1 .f32) (x3 : Vec F S1x1 .f32) (xs0 : Vec F S512x128 .f32) (xs1 : Vec F S512x1 .f32) (y : S512x128.Idx) :
    ∃ pc ∈ (kernelRun4_B c i arg1 harg1 arg2 harg2 arg3 harg3 arg4 harg4 arg5 harg5 arg6 harg6 arg7 harg7 hc0 hc1 x0 x1 x2 x3 xs0 xs1).2.1, y ∈ pc.1.set :=
  View.cover_of_tiledL _ S512x128.size (by sl_kernel_rfl) y

theorem scover4_B_1 (hc0 : ¬cond4_0 i) (hc1 : ¬cond4_1 i)
    (x0 : Vec F S2000x128 .f32) (x1 : Vec F S2000x1 .i32) (x2 : Vec F S128x1 .f32) (x3 : Vec F S1x1 .f32) (xs0 : Vec F S512x128 .f32) (xs1 : Vec F S512x1 .f32) (y : S512x1.Idx) :
    ∃ pc ∈ (kernelRun4_B c i arg1 harg1 arg2 harg2 arg3 harg3 arg4 harg4 arg5 harg5 arg6 harg6 arg7 harg7 hc0 hc1 x0 x1 x2 x3 xs0 xs1).2.2.1, y ∈ pc.1.set :=
  View.cover_of_tiledL _ S512x1.size (by sl_kernel_rfl) y

theorem cover4_C_4 (hc0 : ¬cond4_0 i) (hc1 : cond4_1 i)
    (x0 : Vec F S2000x128 .f32) (x1 : Vec F S2000x1 .i32) (x2 : Vec F S128x1 .f32) (x3 : Vec F S1x1 .f32) (xs0 : Vec F S512x128 .f32) (xs1 : Vec F S512x1 .f32) (y : S512x1.Idx) :
    ∃ pc ∈ (kernelRun4_C c i arg1 harg1 arg2 harg2 arg3 harg3 arg4 harg4 arg5 harg5 arg6 harg6 arg7 harg7 hc0 hc1 x0 x1 x2 x3 xs0 xs1).1, y ∈ pc.1.set :=
  View.cover_of_tiledL _ S512x1.size (by sl_kernel_rfl) y

theorem scover4_C_0 (hc0 : ¬cond4_0 i) (hc1 : cond4_1 i)
    (x0 : Vec F S2000x128 .f32) (x1 : Vec F S2000x1 .i32) (x2 : Vec F S128x1 .f32) (x3 : Vec F S1x1 .f32) (xs0 : Vec F S512x128 .f32) (xs1 : Vec F S512x1 .f32) (y : S512x128.Idx) :
    ∃ pc ∈ (kernelRun4_C c i arg1 harg1 arg2 harg2 arg3 harg3 arg4 harg4 arg5 harg5 arg6 harg6 arg7 harg7 hc0 hc1 x0 x1 x2 x3 xs0 xs1).2.1, y ∈ pc.1.set :=
  View.cover_of_tiledL _ S512x128.size (by sl_kernel_rfl) y

theorem scover4_C_1 (hc0 : ¬cond4_0 i) (hc1 : cond4_1 i)
    (x0 : Vec F S2000x128 .f32) (x1 : Vec F S2000x1 .i32) (x2 : Vec F S128x1 .f32) (x3 : Vec F S1x1 .f32) (xs0 : Vec F S512x128 .f32) (xs1 : Vec F S512x1 .f32) (y : S512x1.Idx) :
    ∃ pc ∈ (kernelRun4_C c i arg1 harg1 arg2 harg2 arg3 harg3 arg4 harg4 arg5 harg5 arg6 harg6 arg7 harg7 hc0 hc1 x0 x1 x2 x3 xs0 xs1).2.2.1, y ∈ pc.1.set :=
  View.cover_of_tiledL _ S512x1.size (by sl_kernel_rfl) y

end

-- A function of the body's seven memrefs, applied at the ones point `t` runs on.
abbrev atPt {α : Sort*} (t : Fin cfg4.N)
    (f : (arg1 : Memref sig .tc .vmem S2000x128 .f32) → arg1.IsWhole → (arg2 : Memref sig .tc .vmem S2000x1 .i32) → arg2.IsWhole → (arg3 : Memref sig .tc .vmem S128x1 .f32) → arg3.IsWhole → (arg4 : Memref sig .tc .vmem S1x1 .f32) → arg4.IsWhole → (arg5 : Memref sig .tc .vmem S512x1 .f32) → arg5.IsWhole → (arg6 : Memref sig .tc .vmem S512x128 .f32) → arg6.IsWhole → (arg7 : Memref sig .tc .vmem S512x1 .f32) → arg7.IsWhole → α) : α :=
  f (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _)

def outsAt4 (c : Dev nD) : (n : ℕ) → n < cfg4.N → Vec F S512x1 .f32 × Vec F S512x128 .f32 × Vec F S512x1 .f32
  | 0, hn => atPt ⟨0, hn⟩ (outs4_A c (grid4.coords ⟨0, hn⟩)) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩)
  | n + 1, hn =>
    if h0 : (n + 1) % 25 = 0 then
      if h1 : (n + 1) % 25 = 24 then
        False.elim (by have hN : n + 1 < 25 := lt_of_lt_of_eq hn (show cfg4.N = 25 from N_4); omega)
      else
        atPt ⟨n + 1, hn⟩ (outs4_A c (grid4.coords ⟨n + 1, hn⟩)) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
    else
      if h1 : (n + 1) % 25 = 24 then
        atPt ⟨n + 1, hn⟩ (outs4_C c (grid4.coords ⟨n + 1, hn⟩)) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2
      else
        atPt ⟨n + 1, hn⟩ (outs4_B c (grid4.coords ⟨n + 1, hn⟩)) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2

theorem outsAt4_A (c : Dev nD) (t : Fin cfg4.N) (h0 : t.val % 25 = 0) (h1 : ¬t.val % 25 = 24) :
    outsAt4 V c t.val t.isLt = atPt t (outs4_A c (grid4.coords t)) ((hcond4_0 t).mpr h0) (fun h => h1 ((hcond4_1 t).mp h)) (iblk4 V c 0 t) (iblk4 V c 1 t) (iblk4 V c 2 t) (iblk4 V c 3 t) := by
  obtain ⟨n, hn⟩ := t
  cases n with
  | zero => exact rfl
  | succ n => exact (dif_pos h0).trans ((dif_neg h1).trans rfl)

theorem outsAt4_B (c : Dev nD) (t : Fin cfg4.N) (h0 : ¬t.val % 25 = 0) (h1 : ¬t.val % 25 = 24) :
    outsAt4 V c t.val t.isLt = atPt t (outs4_B c (grid4.coords t)) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 25 = 0) (h1 : t.val % 25 = 24) :
    outsAt4 V c t.val t.isLt = atPt t (outs4_C c (grid4.coords t)) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.1 ∗ owns (c : Thread nD τ) scM4_1 fullShare (outsAt4 V c n hn).2.2) ∗ Pipeline.scopedRestBut spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.1 ∗ owns (c : Thread nD τ) scM4_1 fullShare (outsAt4 V c n hn).2.2) ∗ Pipeline.scopedRestBut spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.1 ∗ owns (c : Thread nD τ) scM4_1 fullShare (outsAt4 V c (n - 1) (by omega)).2.2) ∗ Pipeline.scopedRestBut spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val % 25 = 0
  · by_cases h1 : t.val % 25 = 24
    · exfalso; omega
    · rw [Dat.leavesExact_idle (dat4 V c) 4 t (idleAt4_4_A t ((hcond4_0 t).mpr h0) (fun h => h1 ((hcond4_1 t).mp h))) (noFlush4_4_A t ((hcond4_0 t).mpr h0) (fun h => h1 ((hcond4_1 t).mp h)))]
      rw [outsAt4_A V c t h0 h1]; dsimp only [atPt]
      unfold outs4_A back; dsimp only
      have hz : t.val = 0 := by omega
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ Set.univ _)
      iframe H0 H1 H2 H3 H4 HS0 HS1
      iintro ⟨H0, H1, H2, H3, H4, ⟨%es0, HS0⟩, ⟨%es1, HS1⟩⟩
      iframe HR Hg Ho H0 H1 H2 H3
      isplitr [H4]; isplitl [HS0]; rotate_right; · iexists _; iexact H4
      all_goals unfold owns; iexists _; isplitr; swap; iassumption; ipureintro
      all_goals first | exact View.read_writes_of_cover _ _ _ _ _ (fun _ => scover4_A_0 ..) | exact View.read_writes_of_cover _ _ _ _ _ (fun _ => scover4_A_1 ..)
  · have hz : t.val ≠ 0 := fun h => h0 (by rw [h])
    by_cases h1 : t.val % 25 = 24
    · rw [show (dat4 V c).leavesExact 4 t = owns (c : Thread nD τ) (ms4_4 t) fullShare ((dat4 V c).after 4 t) from by
        unfold Dat.leavesExact; rw [liveAt4_4_C t (fun h => h0 ((hcond4_0 t).mp h)) ((hcond4_1 t).mpr h1)], after4_4]
      rw [outsAt4_C V c t h0 h1]; dsimp only [atPt]
      unfold outs4_C back; dsimp only
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2 Set.univ _)
      iframe H0 H1 H2 H3
      isplitl [H4]; · iexists _; iexact H4
      iframe HS0 HS1
      iintro ⟨H0, H1, H2, H3, ⟨%e4, H4⟩, ⟨%es0, HS0⟩, ⟨%es1, HS1⟩⟩
      iframe HR Hg Ho H0 H1 H2 H3
      isplitr [H4]; isplitl [HS0]
      all_goals unfold owns; iexists _; isplitr; swap; iassumption; ipureintro
      all_goals first | exact View.read_writes_of_cover _ _ _ _ _ (fun _ => scover4_C_0 ..) | exact View.read_writes_of_cover _ _ _ _ _ (fun _ => scover4_C_1 ..) | exact View.read_writes_of_cover _ _ _ _ _ (fun _ => cover4_C_4 ..)
    · rw [Dat.leavesExact_idle (dat4 V c) 4 t (idleAt4_4_B t (fun h => h0 ((hcond4_0 t).mp h)) (fun h => h1 ((hcond4_1 t).mp h))) (noFlush4_4_B t (fun h => h0 ((hcond4_0 t).mp h)) (fun h => h1 ((hcond4_1 t).mp h)))]
      rw [outsAt4_B V c t h0 h1]; dsimp only [atPt]
      unfold outs4_B back; dsimp only
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2 _ Set.univ _)
      iframe H0 H1 H2 H3 H4 HS0 HS1
      iintro ⟨H0, H1, H2, H3, H4, ⟨%es0, HS0⟩, ⟨%es1, HS1⟩⟩
      iframe HR Hg Ho H0 H1 H2 H3
      isplitr [H4]; isplitl [HS0]; rotate_right; · iexists _; iexact H4
      all_goals unfold owns; iexists _; isplitr; swap; iassumption; ipureintro
      all_goals first | exact View.read_writes_of_cover _ _ _ _ _ (fun _ => scover4_B_0 ..) | exact View.read_writes_of_cover _ _ _ _ _ (fun _ => scover4_B_1 ..)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  iframe HR Hg
  isplitl [HS0] <;> (iexists _; iassumption)

theorem hout4 (c : Dev nD) : (dat4 V c).Φ (Fin.last cfg4.N) ⊢ Pipeline.ΦA spec4 c :=
  Phi_out4 V c _ (by rw [Fin.val_last]; have : cfg4.N = 25 := N_4; omega)

end Cert.KernelIdeal.Hand

end
-- ==== Proof.KI.Run.lean ====
import proofs.«403104_j60447369724153_2_alg».proof.Proof.KI.Reg0
import proofs.«403104_j60447369724153_2_alg».proof.Proof.KI.Reg1
import proofs.«403104_j60447369724153_2_alg».proof.Proof.KI.Reg2
import proofs.«403104_j60447369724153_2_alg».proof.Proof.KI.Reg3
import proofs.«403104_j60447369724153_2_alg».proof.Proof.KI.Reg4
import proofs.«403104_j60447369724153_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 5) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- The exit contents differ from the entry contents only at the arrays listed in `outs`. -/
theorem keep {p : Fin 5} (lf : Pipeline.LaunchFacts (nD := nD) (τ := τ) cfgs p) (c : Dev nD) (V : Valuation τ sig (Elt F))
    (d : Dat τ (Elt F) Unit ℕ (UR sig nD τ) ℕ (cfgs p) c) (hA : ∀ w, d.A w = V (Proc.devRef .tc (Pipeline.arrRef (cfgs p).spec w)))
    (outs : List (Ref sig .tc)) (hro : ∀ w, Pipeline.arrRef (cfgs p).spec w ∉ outs → ((cfgs p).win w).isOut = false)
    (b : Ref sig .tc) (h : b ∉ outs) :
    Pipeline.withArrays (cfgs p).spec c V (fun w => d.arrAt w (cfgs p).N) (Proc.devRef .tc b) = V (Proc.devRef .tc b) := by
  by_cases hb : ∃ w, Pipeline.arrRef (cfgs p).spec w = b
  · obtain ⟨w, rfl⟩ := hb
    exact (Pipeline.withArrays_arr _ lf.win.arr_inj c _ _ w).trans ((d.arrAt_in w (hro w h) _).trans (hA w))
  · exact Pipeline.withArrays_of_ne _ c _ _ b fun w e => hb ⟨w, e⟩

section
variable (pd : (p : Fin 5) → (c : Dev nD) → Dat τ (Elt F) Unit ℕ (UR sig nD τ) ℕ (Pipeline.pin (pcfgs (F := F)) adm p) c)

/-- One construction serves all five regions: they differ only in the entry contents and in the body's proof. -/
def regOf {p : Fin 5} (lf : Pipeline.LaunchFacts (nD := nD) (τ := τ) cfgs p) (V : Dev nD → Valuation τ sig (Elt F))
    (hbody : ∀ c, Pipeline.BodyObligationLoose (pd p c) defs₀ 𝒱₀ () Set.univ)
    (hq : ∀ c w, (pd p c).q w = fullShare) (ho : ∀ c t, (pd p c).owed t = 0) (hrec : ∀ c, (pd p c).recorded 0 = Set.univ)
    (hA : ∀ c w, (pd p c).A w = V c (Proc.devRef .tc (Pipeline.arrRef (cfgs p).spec w)))
    (hin : ∀ c, Pipeline.ΦA (cfgs p).spec c ⊢ (pd p c).Φ 0)
    (hout : ∀ c, (pd p c).Φ (Fin.last _) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]; unfold Pipeline.Dat.owesAt Pipeline.owesWithin; rw [ho c 0]
    have hsplit := Pipeline.arrays_of_unscopedBufs (p := p) (pcfgs (F := F)) adm pd lf.win lf.arr_whole c ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    unfold Pipeline.Dat.owesAt Pipeline.owesWithin; rw [ho c (Fin.last _)]
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b)
      (fun b => Pipeline.withArrays (cfgs p).spec c (V c) (fun w => (pd p c).arrAt w (cfgs p).N) b) ((pd p c).arrAt · (cfgs p).N)
      (fun w => (Pipeline.withArrays_arr _ lf.win.arr_inj c (V c) (fun w => (pd p c).arrAt w (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO
end

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_keep (c : Dev nD) (b : Ref sig .tc) (h : b ∉ ([main_v8_0, main_v8_1] : List (Ref sig .tc))) :
    W2 m ρ c (Proc.devRef .tc b) = W1 m ρ c (Proc.devRef .tc b) :=
  keep launch0 c _ (dat0 (V1 m ρ) c) (A_eq0 (V1 m ρ) c) _ (by decide) b h

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_keep (c : Dev nD) (b : Ref sig .tc) (h : b ∉ ([main_v13] : List (Ref sig .tc))) :
    W4 m ρ c (Proc.devRef .tc b) = W3 m ρ c (Proc.devRef .tc b) :=
  keep launch1 c _ (dat1 (V3 m ρ) c) (A_eq1 (V3 m ρ) c) _ (by decide) b h

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_keep (c : Dev nD) (b : Ref sig .tc) (h : b ∉ ([main_v22_0, main_v22_1] : List (Ref sig .tc))) :
    W6 m ρ c (Proc.devRef .tc b) = W5 m ρ c (Proc.devRef .tc b) :=
  keep launch2 c _ (dat2 (V5 m ρ) c) (A_eq2 (V5 m ρ) c) _ (by decide) b h

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_keep (c : Dev nD) (b : Ref sig .tc) (h : b ∉ ([main_v27] : List (Ref sig .tc))) :
    W8 m ρ c (Proc.devRef .tc b) = W7 m ρ c (Proc.devRef .tc b) :=
  keep launch3 c _ (dat3 (V7 m ρ) c) (A_eq3 (V7 m ρ) c) _ (by decide) b h

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_keep (c : Dev nD) (b : Ref sig .tc) (h : b ∉ ([main_v30] : List (Ref sig .tc))) :
    W10 m ρ c (Proc.devRef .tc b) = W9 m ρ c (Proc.devRef .tc b) :=
  keep launch4 c _ (dat4 (V9 m ρ) c) (A_eq4 (V9 m ρ) c) _ (by decide) b h

abbrev W11 : Dev nD → Valuation τ sig (Elt F) := fun c => StableHlo.after hostOps5 (W10 m ρ c)

abbrev args : List (Ref sig .tc) := [main_arg0, main_arg1, main_arg2, main_arg3, main_arg4, main_arg5, main_arg6, main_arg7, main_arg8, main_arg9, main_arg10, main_arg11, main_arg12, main_arg13, main_arg14]
/-- No argument is among the buffers that any of the eleven items writes. -/
theorem args_free : ∀ b ∈ args, ¬ (Proc.devRef .tc b : DevRef τ sig).isScoped ∧ b ∉ hostOps0_W ∧ b ∉ ([main_v8_0, main_v8_1] : List (Ref sig .tc))
    ∧ b ∉ hostOps1_W ∧ b ∉ ([main_v13] : List (Ref sig .tc)) ∧ b ∉ hostOps2_W ∧ b ∉ ([main_v22_0, main_v22_1] : List (Ref sig .tc))
    ∧ b ∉ hostOps3_W ∧ b ∉ ([main_v27] : List (Ref sig .tc)) ∧ b ∉ hostOps4_W ∧ b ∉ ([main_v30] : List (Ref sig .tc)) ∧ b ∉ hostOps5_W := by
  decide

section
variable (c : Dev nD) (b : Ref sig .tc) (hb : b ∈ args)
include hb
/-- No item writes an argument, so every boundary holds it as launched. -/
theorem W1_arg : W1 m ρ c (Proc.devRef .tc b) = m ((c : Thread nD τ).loc b) :=
  StableHlo.after_of_writes_sub hostOps0 _ hostOps0_writes (args_free b hb).2.1
theorem W2_arg : W2 m ρ c (Proc.devRef .tc b) = m ((c : Thread nD τ).loc b) :=
  (W2_keep m ρ c b (args_free b hb).2.2.1).trans (W1_arg m ρ c b hb)
theorem W3_arg : W3 m ρ c (Proc.devRef .tc b) = m ((c : Thread nD τ).loc b) :=
  (StableHlo.after_of_writes_sub hostOps1 _ hostOps1_writes (args_free b hb).2.2.2.1).trans (W2_arg m ρ c b hb)
theorem W4_arg : W4 m ρ c (Proc.devRef .tc b) = m ((c : Thread nD τ).loc b) :=
  (W4_keep m ρ c b (args_free b hb).2.2.2.2.1).trans (W3_arg m ρ c b hb)
theorem W5_arg : W5 m ρ c (Proc.devRef .tc b) = m ((c : Thread nD τ).loc b) :=
  (StableHlo.after_of_writes_sub hostOps2 _ hostOps2_writes (args_free b hb).2.2.2.2.2.1).trans (W4_arg m ρ c b hb)
theorem W6_arg : W6 m ρ c (Proc.devRef .tc b) = m ((c : Thread nD τ).loc b) :=
  (W6_keep m ρ c b (args_free b hb).2.2.2.2.2.2.1).trans (W5_arg m ρ c b hb)
theorem W7_arg : W7 m ρ c (Proc.devRef .tc b) = m ((c : Thread nD τ).loc b) :=
  (StableHlo.after_of_writes_sub hostOps3 _ hostOps3_writes (args_free b hb).2.2.2.2.2.2.2.1).trans (W6_arg m ρ c b hb)
theorem W8_arg : W8 m ρ c (Proc.devRef .tc b) = m ((c : Thread nD τ).loc b) :=
  (W8_keep m ρ c b (args_free b hb).2.2.2.2.2.2.2.2.1).trans (W7_arg m ρ c b hb)
theorem W9_arg : W9 m ρ c (Proc.devRef .tc b) = m ((c : Thread nD τ).loc b) :=
  (StableHlo.after_of_writes_sub hostOps4 _ hostOps4_writes (args_free b hb).2.2.2.2.2.2.2.2.2.1).trans (W8_arg m ρ c b hb)
theorem W10_arg : W10 m ρ c (Proc.devRef .tc b) = m ((c : Thread nD τ).loc b) :=
  (W10_keep m ρ c b (args_free b hb).2.2.2.2.2.2.2.2.2.2.1).trans (W9_arg m ρ c b hb)
theorem W11_arg : W11 m ρ c (Proc.devRef .tc b) = m ((c : Thread nD τ).loc b) :=
  (StableHlo.after_of_writes_sub hostOps5 _ hostOps5_writes (args_free b hb).2.2.2.2.2.2.2.2.2.2.2).trans (W10_arg m ρ c b hb)
end

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c

def reg0 : Pipeline.RegionSeg (pcfgs (F := F)) adm (pdats m ρ) () defs₀ 𝒱₀ L lv 0 :=
  regOf (pdats m ρ) launch0 (W1 m ρ) (fun c => (body_obligation0 (V1 m ρ) c).loose) (fun _ _ => rfl) (fun _ _ => rfl) (fun _ => rfl)
    (A_eq0 (V1 m ρ)) (fun _ => .rfl) (fun _ => .rfl)
def reg1 : Pipeline.RegionSeg (pcfgs (F := F)) adm (pdats m ρ) () defs₀ 𝒱₀ L lv 1 :=
  regOf (pdats m ρ) launch1 (W3 m ρ) (fun c => (body_obligation1 (V3 m ρ) c).loose) (fun _ _ => rfl) (fun _ _ => rfl) (fun _ => rfl)
    (A_eq1 (V3 m ρ)) (fun _ => .rfl) (fun _ => .rfl)
def reg2 : Pipeline.RegionSeg (pcfgs (F := F)) adm (pdats m ρ) () defs₀ 𝒱₀ L lv 2 :=
  regOf (pdats m ρ) launch2 (W5 m ρ) (fun c => (body_obligation2 (V5 m ρ) c).loose) (fun _ _ => rfl) (fun _ _ => rfl) (fun _ => rfl)
    (A_eq2 (V5 m ρ)) (fun _ => .rfl) (fun _ => .rfl)
def reg3 : Pipeline.RegionSeg (pcfgs (F := F)) adm (pdats m ρ) () defs₀ 𝒱₀ L lv 3 :=
  regOf (pdats m ρ) launch3 (W7 m ρ) (fun c => (body_obligation3 (V7 m ρ) c).loose) (fun _ _ => rfl) (fun _ _ => rfl) (fun _ => rfl)
    (A_eq3 (V7 m ρ)) (fun _ => .rfl) (fun _ => .rfl)
def reg4 : Pipeline.RegionSeg (pcfgs (F := F)) adm (pdats m ρ) () defs₀ 𝒱₀ L lv 4 :=
  regOf (pdats m ρ) launch4 (W9 m ρ) (fun c => (body_obligation4 (V9 m ρ) c).loose) (fun _ _ => rfl) (fun _ _ => rfl) (fun _ => rfl)
    (A_eq4 (V9 m ρ)) (hin4 (V9 m ρ)) (hout4 (V9 m ρ))

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
theorem main_run (c : Dev nD) : main (F := F) c = Pipeline.Seg.run (segs m ρ) := (main_chain c).trans (by chain_rfl)

/-- The whole program terminates from the launch state, and every buffer that outlives it ends at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v31) = W11 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k : ∀ b ∈ args, r.2.mem ((c.tc : Thread nD τ).loc b) = m ((c.tc : Thread nD τ).loc b) := fun b hb =>
      (h c _ (mem_uc b (args_free b hb).1)).trans (W11_arg m ρ c b hb)
    ⟨h c _ (mem_uc main_v31 (by decide)), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide)⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run_result m ρ)

end Cert.KernelIdeal.Hand

end
-- ==== Proof.Spec.lean ====
import proofs.«403104_j60447369724153_2_alg».proof.Proof.Gen.ReferenceIdeal.Run
import Idealize.ShloMosaic.PureOps.Ideal

noncomputable section

namespace Cert.Spec

open Cert.ReferenceIdeal Cert.ReferenceIdeal.Gen Idealize.ShloMosaic Idealize.ShloMosaic.TcCoe Idealize.SL.Sem

abbrev Arr (s : Shape) : Type := FVec Ideal s .f32

abbrev IArr (s : Shape) : Type := IVec s 32

def wrapIdx (src : IArr S600000) : IArr S600000x1 :=
  broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)

def edgeLin (e : Arr S600000x128) (W : Arr S128x128) (b : Arr S128) : Arr S600000x128 :=
  addf (Host.dotGeneral dot_S600000x128_S128x128_S600000x128_1_0_0_1_n_n none e W) (broadcastInDim S600000x128 ![0, 1] bcast_S1x128_S600000x128_0_1 (broadcastInDim S1x128 ![1] bcast_S128_S1x128_1 b))

def srcRows (x : Arr S50000x128) (src : IArr S600000) : Arr S600000x128 :=
  Host.gather gather_S50000x128_S600000x1_S600000x128_1_0_n_n_0_1_1128 x (wrapIdx src)

def msgs (x : Arr S50000x128) (src : IArr S600000) (e : Arr S600000x128) : Arr S600000x128 :=
  addf (srcRows x src) e

def segSum (dst : IArr S600000) (msg : Arr S600000x128) : Arr S50000x128 :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 dst) msg

def nodePre (h : Arr S50000x128) (W : Arr S128x128) (b : Arr S128) : Arr S50000x128 :=
  addf (Host.dotGeneral dot_S50000x128_S128x128_S50000x128_1_0_0_1_n_n none h W) (broadcastInDim S50000x128 ![0, 1] bcast_S1x128_S50000x128_0_1 (broadcastInDim S1x128 ![1] bcast_S128_S1x128_1 b))

def silu (y : Arr S50000x128) : Arr S50000x128 :=
  mulf y (Host.divf (broadcastInDim S50000x128 ![] bcast_S_S50000x128 (constant S_ .f32 0x3F800000#32)) (addf (broadcastInDim S50000x128 ![] bcast_S_S50000x128 (constant S_ .f32 0x3F800000#32)) (Host.exp (Host.negf y))))

def nodeAct (h : Arr S50000x128) (W : Arr S128x128) (b : Arr S128) : Arr S50000x128 :=
  silu (nodePre h W b)

def poolSum (x : Arr S50000x128) (gid : IArr S50000) : Arr S512x128 :=
  Host.scatterAdd scatter_S512x128_S50000x1_S50000x128_1_0_0_1 (broadcastInDim S512x128 ![] bcast_S_S512x128 (constant S_ .f32 0x00000000#32)) (broadcastInDim S50000x1 ![0] bcast_S50000_S50000x1_0 gid) x

def poolCnt (gid : IArr S50000) : Arr S512 :=
  Host.scatterAdd scatter_S512_S50000x1_S50000_n_0_0_1 (broadcastInDim S512 ![] bcast_S_S512 (constant S_ .f32 0x00000000#32)) (broadcastInDim S50000x1 ![0] bcast_S50000_S50000x1_0 gid) (broadcastInDim S50000 ![] bcast_S_S50000 (constant S_ .f32 0x3F800000#32))

def pool (x : Arr S50000x128) (gid : IArr S50000) (fcw : Arr S128x1) (fcb : Arr S1) : Arr S512 :=
  shapeCast S512 (addf (Host.dotGeneral dot_S512x128_S128x1_S512x1_1_0_0_1_n_n none (Host.divf (poolSum x gid) (broadcastInDim S512x128 ![0, 1] bcast_S512x1_S512x128_0_1 (broadcastInDim S512x1 ![0] bcast_S512_S512x1_0 (maximumf (poolCnt gid) (broadcastInDim S512 ![] bcast_S_S512 (constant S_ .f32 0x3F800000#32)))))) fcw) (broadcastInDim S512x1 ![0, 1] bcast_S1x1_S512x1_0_1 (broadcastInDim S1x1 ![1] bcast_S1_S1x1_1 fcb))) shapeCasts_S512x1_S512

def net (a0 : Arr S50000x128) (a1 : Arr S600000x128) (a2 a3 : IArr S600000) (a4 : IArr S50000)
    (a5 : Arr S128x128) (a6 : Arr S128) (a7 : Arr S128x128) (a8 : Arr S128) (a9 : Arr S128x128) (a10 : Arr S128)
    (a11 : Arr S128x128) (a12 : Arr S128) (a13 : Arr S128x1) (a14 : Arr S1) : Arr S512 :=
  pool (nodeAct (segSum a3 (msgs (nodeAct (segSum a3 (msgs a0 a2 (edgeLin a1 a5 a6))) a7 a8) a2 (edgeLin (edgeLin a1 a5 a6) a9 a10))) a11 a12) a4 a13 a14

theorem ref_eq (m : (ℓ : Loc nD τ sig) → Buf (Elt Ideal) ℓ) (c : Dev nD) :
    Cert.ReferenceIdeal.Value.res_main_v56 (F := Ideal) m c
      = net (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.Value.res_main_v56 net pool poolSum poolCnt nodeAct silu nodePre segSum msgs srcRows edgeLin wrapIdx
  rfl

end Cert.Spec

end
-- ==== Proof.KI.Val0.lean ====
import proofs.«403104_j60447369724153_2_alg».proof.Proof.KI.Reg0
import proofs.«403104_j60447369724153_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2 eq_ix1 eq_ix2)

/-- Entry (r, j) of e·W + b: row r of e against column j of W, plus entry j of b. -/
theorem edgeLin0_apply (e : Cert.Spec.Arr Cert.ReferenceIdeal.S600000x128) (W : Cert.Spec.Arr Cert.ReferenceIdeal.S128x128)
    (b : Cert.Spec.Arr Cert.ReferenceIdeal.S128) (r : Fin 600000) (j : Fin 128) :
    Cert.Spec.edgeLin e W b (ix2 r j) = (∑ k : Fin 128, e (ix2 r k) * W (ix2 k j)) + b (ix1 j) := by
  unfold Cert.Spec.edgeLin
  rw [ValueIdx.addf_apply]
  refine congrArg₂ (· + ·) (StackMember.dotGeneral_plain_apply none e W r j) ?_
  exact (broadcastInDim_apply _ _ _ (ix2 r j) (ix2 (0 : Fin 1) j) fun a => by match a with | ⟨0, _⟩ => rfl | ⟨1, _⟩ => rfl).trans
    (broadcastInDim_apply _ _ b _ (ix1 j) fun a => by match a with | ⟨0, _⟩ => rfl)

/-- Entry (p, q) of the first payload: the same sum over a block, the product into a zero accumulator being the plain one. -/
theorem pay0_1_apply (x : Vec Ideal S6000x128 .f32) (w : Vec Ideal S128x128 .f32) (bb : Vec Ideal S1x128 .f32) (p : Fin 6000) (q : Fin 128) :
    k0_pay1 (F := Ideal) x w bb (ix2 p q) = (∑ k : Fin 128, x (ix2 p k) * w (ix2 k q)) + bb (ix2 (0 : Fin 1) q) := by
  unfold k0_pay1
  simp only [shapeCast_self]
  rw [ValueIdx.addf_apply]
  exact congrArg₂ (· + ·) ((Ideal.matmul_constant_zero_apply _ _ x w _).trans
    ((Ideal.dotGeneral_apply _ none _ x w _).symm.trans (StackMember.dotGeneral_plain_apply none x w p q))) (ValueIdx.broadcastTo_1b_ab_apply bb _ p q)

theorem hz0 : (![0, 0] : Fin 2 → Nat) = fun _ => 0 := funext fun a => by fin_cases a <;> rfl

/-- The stored blocks are the payloads of the blocks read. -/
theorem out0_4_eq (x0 : Vec Ideal S6000x128 .f32) (x2 : Vec Ideal S128x128 .f32) (x3 : Vec Ideal S1x128 .f32) :
    out0_4 x0 x2 x3 = k0_pay1 x0 x2 x3 := by
  unfold out0_4
  rw [View.canon_unit_zero hz0]
  simp only [View.ld_unit_zero (S := S6000x128) hz0, View.ld_unit_zero (S := S128x128) hz0, View.ld_unit_zero (S := S1x128) hz0]
theorem out0_5_eq (x0 x1 : Vec Ideal S6000x128 .f32) (x2 : Vec Ideal S128x128 .f32) (x3 : Vec Ideal S1x128 .f32) :
    out0_5 x0 x1 x2 x3 = k0_pay2 x0 x2 x3 x1 := by
  unfold out0_5
  rw [View.canon_unit_zero hz0]
  simp only [View.ld_unit_zero (S := S6000x128) hz0, View.ld_unit_zero (S := S128x128) hz0, View.ld_unit_zero (S := S1x128) hz0]

/-- By evaluating the index maps at each of the hundred grid points. -/
theorem idx_facts0 : ∀ t : Fin cfg0.N,
    win0_0.index t (0 : Fin 2) = t.val ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Block t of a row-blocked array is its rows 6000·t …; the blocked windows of both edge regions share this view. -/
theorem read_rows0 (t : Fin cfg0.N) (A : S600000x128.Idx → EReal) (p : Fin 6000) (k : Fin 128) (r : Fin 600000)
    (hr : r.val = 6000 * t.val + p.val) :
    (((cfg0.win 0).blk t).view.read (Elt Ideal) A : Vec Ideal S6000x128 .f32) (ix2 p k) = A (ix2 r k) := by
  obtain ⟨e0, e1, -⟩ := idx_facts0 t
  show A _ = A _
  congr 1
  exact Shape.idx_ext₂ (by show win0_0.index t (0 : Fin 2) * 6000 + 1 * p.val = r.val; rw [e0, hr]; omega)
    (by show win0_0.index t (1 : Fin 2) * 128 + 1 * k.val = k.val; rw [e1]; omega)

/-- The weights' block is the whole matrix, -/
theorem read_W0 (t : Fin cfg0.N) (A : S128x128.Idx → EReal) (y : S128x128.Idx) :
    (((cfg0.win 2).blk t).view.read (Elt Ideal) A : Vec Ideal S128x128 .f32) y = A y := by
  obtain ⟨-, -, e0, e1, -⟩ := idx_facts0 t
  show A _ = A _
  congr 1
  exact Shape.idx_ext₂ (win0_2.rect_emb_val_of_index_zero t 0 e0 y) (win0_2.rect_emb_val_of_index_zero t 1 e1 y)

/-- and the bias's block the whole row. -/
theorem read_b0 (t : Fin cfg0.N) (A : S1x128.Idx → EReal) (y : S1x128.Idx) :
    (((cfg0.win 3).blk t).view.read (Elt Ideal) A : Vec Ideal S1x128 .f32) y = A y := by
  obtain ⟨-, -, -, -, e0, e1⟩ := idx_facts0 t
  show A _ = A _
  congr 1
  exact Shape.idx_ext₂ (win0_3.rect_emb_val_of_index_zero t 0 e0 y) (win0_3.rect_emb_val_of_index_zero t 1 e1 y)

/-- A function on a block that agrees with rows 6000·t … of G is block t of G. -/
theorem ext_rows0 (t : Fin cfg0.N) (f : Vec Ideal S6000x128 .f32) (G : S600000x128.Idx → EReal)
    (h : ∀ (p : Fin 6000) (q : Fin 128) (r : Fin 600000), r.val = 6000 * t.val + p.val → f (ix2 p q) = G (ix2 r q)) :
    f = ((cfg0.win 0).blk t).view.read (Elt Ideal) G := by
  funext y
  obtain ⟨p, q, rfl⟩ : ∃ (p : Fin 6000) (q : Fin 128), y = ix2 p q := ⟨y 0, y 1, eq_ix2 y⟩
  have ht : t.val < 100 := N_0 ▸ t.isLt
  exact (h p q ⟨6000 * t.val + p.val, by omega⟩ rfl).trans (read_rows0 t G p q _ rfl).symm

/-- The first payload on block t of the arrays is rows 6000·t … of e·W + b. -/
theorem pay1_rows0 (t : Fin cfg0.N) (A0 : S600000x128.Idx → EReal) (A2 : S128x128.Idx → EReal) (A3 : S1x128.Idx → EReal)
    (b : Cert.Spec.Arr Cert.ReferenceIdeal.S128) (hb : ∀ j : Fin 128, A3 (ix2 (0 : Fin 1) j) = b (ix1 j))
    (p : Fin 6000) (q : Fin 128) (r : Fin 600000) (hr : r.val = 6000 * t.val + p.val) :
    k0_pay1 (F := Ideal) (((cfg0.win 0).blk t).view.read (Elt Ideal) A0) (((cfg0.win 2).blk t).view.read (Elt Ideal) A2)
      (((cfg0.win 3).blk t).view.read (Elt Ideal) A3) (ix2 p q) = Cert.Spec.edgeLin A0 A2 b (ix2 r q) := by
  rw [pay0_1_apply, edgeLin0_apply, read_b0, hb]
  exact congrArg (· + _) (Finset.sum_congr rfl fun k _ => by rw [read_rows0 t A0 p k r hr, read_W0])

/-- What a grid point stores first is block t of e·W + b of the arrays its blocks were read from, -/
theorem blk0_4 (t : Fin cfg0.N) (A0 : S600000x128.Idx → EReal) (A2 : S128x128.Idx → EReal) (A3 : S1x128.Idx → EReal)
    (b : Cert.Spec.Arr Cert.ReferenceIdeal.S128) (hb : ∀ j : Fin 128, A3 (ix2 (0 : Fin 1) j) = b (ix1 j)) :
    out0_4 (((cfg0.win 0).blk t).view.read (Elt Ideal) A0) (((cfg0.win 2).blk t).view.read (Elt Ideal) A2) (((cfg0.win 3).blk t).view.read (Elt Ideal) A3)
      = ((cfg0.win 0).blk t).view.read (Elt Ideal) (Cert.Spec.edgeLin A0 A2 b) := by
  rw [out0_4_eq]
  exact ext_rows0 t _ _ (pay1_rows0 t A0 A2 A3 b hb)

/-- and second block t of g + (e·W + b). -/
theorem blk0_5 (t : Fin cfg0.N) (A0 A1 : S600000x128.Idx → EReal) (A2 : S128x128.Idx → EReal) (A3 : S1x128.Idx → EReal)
    (b : Cert.Spec.Arr Cert.ReferenceIdeal.S128) (hb : ∀ j : Fin 128, A3 (ix2 (0 : Fin 1) j) = b (ix1 j)) :
    out0_5 (((cfg0.win 0).blk t).view.read (Elt Ideal) A0) (((cfg0.win 0).blk t).view.read (Elt Ideal) A1)
        (((cfg0.win 2).blk t).view.read (Elt Ideal) A2) (((cfg0.win 3).blk t).view.read (Elt Ideal) A3)
      = ((cfg0.win 0).blk t).view.read (Elt Ideal) (addf A1 (Cert.Spec.edgeLin A0 A2 b)) := by
  rw [out0_5_eq]
  refine ext_rows0 t _ _ fun p q r hr => ?_
  unfold k0_pay2
  simp only [shapeCast_self]
  rw [ValueIdx.addf_apply, ValueIdx.addf_apply, pay1_rows0 t A0 A2 A3 b hb p q r hr, read_rows0 t A1 p q r hr]

/-- Row r of an output array lies in the block of point r / 6000. -/
theorem cover0_4 (i : S600000x128.Idx) : ∃ t : Fin cfg0.N, (cfg0.win 4).flush t = true ∧ i ∈ ((cfg0.win 4).blk t).view.set := by
  have hi0 : (i 0).val < 600000 := (i 0).isLt
  have hi1 : (i 1).val < 128 := (i 1).isLt
  have hN : cfg0.N = 100 := N_0
  let t : Fin cfg0.N := ⟨(i 0).val / 6000, by rw [hN]; omega⟩
  obtain ⟨e0, e1, -⟩ := idx_facts0 t
  have ht : t.val = (i 0).val / 6000 := rfl
  refine ⟨t, flush0_4 t, ?_⟩
  show i ∈ ((View.whole main_arg1).slice (win0_0.rect t)).set
  rw [View.set_slice_whole, Rect.mem_set_unit]
  intro a
  match a with
  | ⟨0, _⟩ => show win0_0.index t (0 : Fin 2) * 6000 ≤ (i 0).val ∧ (i 0).val < win0_0.index t (0 : Fin 2) * 6000 + 6000; rw [e0, ht]; omega
  | ⟨1, _⟩ => show win0_0.index t (1 : Fin 2) * 128 ≤ (i 1).val ∧ (i 1).val < win0_0.index t (1 : Fin 2) * 128 + 128; rw [e1]; omega

variable (V : (c : Dev nD) → (b : Ref sig .tc) → Buf (Elt Ideal) ((c : Thread nD τ).loc b))

/-- The first output array after the region is e·W + b of the entry arrays, -/
theorem arr0_4 (c : Dev nD) (b : Cert.Spec.Arr Cert.ReferenceIdeal.S128)
    (hb : ∀ j : Fin 128, (V c (Pipeline.arrRef spec0 3) : S1x128.Idx → EReal) (ix2 (0 : Fin 1) j) = b (ix1 j)) :
    (dat0 (F := Ideal) V c).arrAt 4 cfg0.N = Cert.Spec.edgeLin (V c (Pipeline.arrRef spec0 0)) (V c (Pipeline.arrRef spec0 2)) b :=
  (dat0 (F := Ideal) V c).arrAt_eq_of_cover 4 _ (fun t _ => by
    show (cfg0.win 4).cut (grid0.coords t) ((dat0 (F := Ideal) V c).after 4 t) = _
    dsimp only [dat0]
    exact blk0_4 t (V c (Pipeline.arrRef spec0 0)) (V c (Pipeline.arrRef spec0 2)) (V c (Pipeline.arrRef spec0 3)) b hb) cover0_4

/-- and the second the gathered rows plus it. -/
theorem arr0_5 (c : Dev nD) (b : Cert.Spec.Arr Cert.ReferenceIdeal.S128)
    (hb : ∀ j : Fin 128, (V c (Pipeline.arrRef spec0 3) : S1x128.Idx → EReal) (ix2 (0 : Fin 1) j) = b (ix1 j)) :
    (dat0 (F := Ideal) V c).arrAt 5 cfg0.N
      = addf (V c (Pipeline.arrRef spec0 1)) (Cert.Spec.edgeLin (V c (Pipeline.arrRef spec0 0)) (V c (Pipeline.arrRef spec0 2)) b) :=
  (dat0 (F := Ideal) V c).arrAt_eq_of_cover 5 _ (fun t _ => by
    show (cfg0.win 5).cut (grid0.coords t) ((dat0 (F := Ideal) V c).after 5 t) = _
    dsimp only [dat0]
    exact blk0_5 t (V c (Pipeline.arrRef spec0 0)) (V c (Pipeline.arrRef spec0 1)) (V c (Pipeline.arrRef spec0 2)) (V c (Pipeline.arrRef spec0 3)) b hb) cover0_4

end Cert.KernelIdeal.Hand

end
-- ==== Proof.KI.Val1.lean ====
import proofs.«403104_j60447369724153_2_alg».proof.Proof.KI.Reg1
import proofs.«403104_j60447369724153_2_alg».proof.Proof.Spec
import Idealize.ShloMosaic.Lib.Pipeline.Value
import Idealize.ShloMosaic.Lib.StackMember
import Idealize.ShloMosaic.Lib.KernelVsHost
import Idealize.ShloMosaic.Lib.ValueLayout
import Idealize.ShloMosaic.Lib.IdealHost

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Idealize.ShloMosaic.StackMember
open scoped BigOperators

theorem hz1 : (![0, 0] : Fin 2 → Nat) = fun _ => 0 := funext fun a => by fin_cases a <;> rfl

-- Each rectangle read or written is the whole block, so out1_3 is the product itself.
theorem out1_3_eq (x0 : Vec Ideal S10000x128 .f32) (x1 : Vec Ideal S128x128 .f32) (x2 : Vec Ideal S1x128 .f32) :
    out1_3 x0 x1 x2 = k1_pay1 x0 x1 x2 := by
  unfold out1_3
  rw [View.canon_unit_zero hz1]
  simp only [View.ld_unit_zero (S := S10000x128) hz1, View.ld_unit_zero (S := S128x128) hz1, View.ld_unit_zero (S := S1x128) hz1]

theorem mm1_apply (l : FVec Ideal S10000x128 .f32) (r : FVec Ideal S128x128 .f32) (p : Fin 10000) (q : Fin 128) :
    matmul dot_S10000x128_S128x128_S10000x128_1_0_0_1_n_n (some .fp32) l r (constant (F := Ideal) S10000x128 .f32 0x00000000#32) (ix2 p q)
      = ∑ k : Fin 128, l (ix2 p k) * r (ix2 k q) :=
  (congrFun (matmul_zero_eq_dotGeneral _ _ l r) _).trans (dotGeneral_plain_apply _ l r p q)

theorem dotN1_apply (h : Cert.Spec.Arr Cert.ReferenceIdeal.S50000x128) (W : Cert.Spec.Arr Cert.ReferenceIdeal.S128x128) (r : Fin 50000) (q : Fin 128) :
    Host.dotGeneral Cert.ReferenceIdeal.dot_S50000x128_S128x128_S50000x128_1_0_0_1_n_n none h W (ix2 r q)
      = ∑ k : Fin 128, h (ix2 r k) * W (ix2 k q) :=
  dotGeneral_plain_apply none h W r q

-- With row p of x0 row r of h, column q of x1 that of W and x2's entry q that of b, the product at (p, q) is the node layer at (r, q): both are y · logistic y at y = ∑ k, h r k · W k q + b q, and logistic y = 1 / (1 + exp (−y)).
theorem node_apply (x0 : Vec Ideal S10000x128 .f32) (x1 : Vec Ideal S128x128 .f32) (x2 : Vec Ideal S1x128 .f32)
    (h : Cert.Spec.Arr Cert.ReferenceIdeal.S50000x128) (W : Cert.Spec.Arr Cert.ReferenceIdeal.S128x128) (b : Cert.Spec.Arr Cert.ReferenceIdeal.S128)
    (i : Cert.ReferenceIdeal.S50000x128.Idx) (p : Fin 10000) (q : Fin 128) (r : Fin 50000) (hr : (i 0).val = r.val) (hq : (i 1).val = q.val)
    (hx : ∀ k, x0 (ix2 p k) = h (ix2 r k)) (hw : ∀ k, x1 (ix2 k q) = W (ix2 k q)) (hb : x2 (ix2 (0 : Fin 1) q) = b (ix1 q)) :
    k1_pay1 x0 x1 x2 (ix2 p q) = Cert.Spec.nodeAct h W b i := by
  obtain rfl : i = ix2 r q := Shape.idx_ext₂ hr hq
  unfold Cert.Spec.nodeAct Cert.Spec.silu Cert.Spec.nodePre
  rw [mulf_apply, hostDivf_apply, addf_apply, addf_apply, broadcastInDim_scalar_apply, constant_apply, Ideal.ofBits_one_f32,
    show ∀ (y : Cert.Spec.Arr Cert.ReferenceIdeal.S50000x128) (i : Cert.ReferenceIdeal.S50000x128.Idx), Host.exp (Host.negf y) i = Ideal.exp (-(y i)) from fun _ _ => rfl,
    addf_apply, dotN1_apply, broadcastInDim_oneRow_apply,
    broadcastInDim_apply _ _ b (ix2 (0 : Fin 1) q) (ix1 q) fun a => match a with | ⟨0, _⟩ => (if_neg (by decide : ¬(128 : ℕ) = 1)).symm]
  unfold k1_pay1
  simp only [shapeCast_self]
  show (fun y : EReal => y * Ideal.logistic y) (matmul (F := Ideal) _ _ x0 x1 _ (ix2 p q) + broadcastTo ⟨2, ![10000, 128]⟩ x2 _ (ix2 p q)) = _
  rw [mm1_apply, broadcastTo_1b_ab_apply]
  simp only [hx, hw, hb]
  rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

-- Block t is rows 10000·t … of its array and the weights' and the bias' blocks are whole, so whatever the arrays hold, out1_3 of their blocks at t is block t of their node layer.
theorem blk1_3 (t : Fin cfg1.N) (A0 : S50000x128.Idx → EReal) (A1 : S128x128.Idx → EReal) (A2 : S1x128.Idx → EReal)
    (b : Cert.Spec.Arr Cert.ReferenceIdeal.S128) (hb : ∀ j : Fin 128, A2 (ix2 (0 : Fin 1) j) = b (ix1 j)) :
    out1_3 (((cfg1.win 0).blk t).view.read (Elt Ideal) A0) (((cfg1.win 1).blk t).view.read (Elt Ideal) A1) (((cfg1.win 2).blk t).view.read (Elt Ideal) A2)
      = ((cfg1.win 0).blk t).view.read (Elt Ideal) (Cert.Spec.nodeAct A0 A1 b) := by
  obtain ⟨e0, e1, w0, w1, b0, b1⟩ := idx_facts1 t
  have ht : t.val < 5 := N_1 ▸ t.isLt
  rw [out1_3_eq]
  funext y
  obtain ⟨p, q, rfl⟩ : ∃ (p : Fin 10000) (q : Fin 128), y = ix2 p q := ⟨y 0, y 1, eq_ix2 y⟩
  have hrow : ∀ k : Fin 128, (((cfg1.win 0).blk t).view.emb (ix2 p k) : S50000x128.Idx) = ix2 ⟨t.val * 10000 + p.val, by omega⟩ k := fun k =>
    Shape.idx_ext₂ (by show win1_0.index t (0 : Fin 2) * 10000 + 1 * p.val = t.val * 10000 + p.val; rw [e0]; omega) (by show win1_0.index t (1 : Fin 2) * 128 + 1 * k.val = k.val; rw [e1]; omega)
  show _ = Cert.Spec.nodeAct A0 A1 b _
  exact node_apply _ _ _ A0 A1 b _ p q ⟨t.val * 10000 + p.val, by omega⟩ (congrArg (fun i : S50000x128.Idx => (i 0).val) (hrow q)) (congrArg (fun i : S50000x128.Idx => (i 1).val) (hrow q))
    (fun k => congrArg A0 (hrow k))
    (fun k => congrArg A1 (Shape.idx_ext₂ (win1_1.rect_emb_val_of_index_zero t 0 w0 _) (win1_1.rect_emb_val_of_index_zero t 1 w1 _)))
    ((congrArg A2 (Shape.idx_ext₂ (win1_2.rect_emb_val_of_index_zero t 0 b0 _) (win1_2.rect_emb_val_of_index_zero t 1 b1 _))).trans (hb q))

-- Row r of the array lies in the block of point r / 10000.
theorem covered1_3 (i : S50000x128.Idx) : ∃ t : Fin cfg1.N, (cfg1.win 3).flush t = true ∧ i ∈ ((cfg1.win 3).blk t).view.set := by
  have hrow : (i 0).val < 50000 := (i 0).isLt
  have hcol : (i 1).val < 128 := (i 1).isLt
  have hN : cfg1.N = 5 := N_1
  obtain ⟨t, ht⟩ : ∃ t : Fin cfg1.N, t.val = (i 0).val / 10000 := ⟨⟨(i 0).val / 10000, by omega⟩, rfl⟩
  obtain ⟨e0, e1, -⟩ := idx_facts1 t
  refine ⟨t, flush1_3 t, ?_⟩
  show i ∈ ((View.whole (Pipeline.arrRef spec1 3)).slice (win1_0.rect t)).set
  rw [View.set_slice_whole, Rect.mem_set_unit]
  intro a
  match a with
  | ⟨0, _⟩ => show win1_0.index t (0 : Fin 2) * 10000 ≤ (i 0).val ∧ (i 0).val < win1_0.index t (0 : Fin 2) * 10000 + 10000; rw [e0, ht]; omega
  | ⟨1, _⟩ => show win1_0.index t (1 : Fin 2) * 128 ≤ (i 1).val ∧ (i 1).val < win1_0.index t (1 : Fin 2) * 128 + 128; rw [e1]; omega

variable (V : (c : Dev nD) → (b : Ref sig .tc) → Buf (Elt Ideal) ((c : Thread nD τ).loc b))

-- The array region 1 leaves is the node layer of the arrays it finds, b being the vector its bias row spells.
theorem arr1_3 (c : Dev nD) (b : Cert.Spec.Arr Cert.ReferenceIdeal.S128)
    (hb : ∀ j : Fin 128, (V c (Pipeline.arrRef spec1 2) : S1x128.Idx → EReal) (ix2 (0 : Fin 1) j) = b (ix1 j)) :
    (dat1 (F := Ideal) V c).arrAt 3 cfg1.N = Cert.Spec.nodeAct (V c (Pipeline.arrRef spec1 0)) (V c (Pipeline.arrRef spec1 1)) b :=
  (dat1 (F := Ideal) V c).arrAt_eq_of_cover 3 _ (fun t _ => by
    show (cfg1.win 3).cut (grid1.coords t) ((dat1 (F := Ideal) V c).after 3 t) = _
    dsimp only [dat1]
    exact blk1_3 t (V c (Pipeline.arrRef spec1 0)) (V c (Pipeline.arrRef spec1 1)) (V c (Pipeline.arrRef spec1 2)) b hb) covered1_3

end Cert.KernelIdeal.Hand

end
-- ==== Proof.KI.Val2.lean ====
import proofs.«403104_j60447369724153_2_alg».proof.Proof.KI.Reg2
import proofs.«403104_j60447369724153_2_alg».proof.Proof.KI.Val0

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2 eq_ix1 eq_ix2)

variable (V : (c : Dev nD) → (b : Ref sig .tc) → Buf (Elt Ideal) ((c : Thread nD τ).loc b))

/-- Region 2 stores what region 0 stores, block for block, over its own arrays: its second output array is the gathered rows plus e·W + b. -/
theorem arr2_5 (c : Dev nD) (b : Cert.Spec.Arr Cert.ReferenceIdeal.S128)
    (hb : ∀ j : Fin 128, (V c (Pipeline.arrRef spec2 3) : S1x128.Idx → EReal) (ix2 (0 : Fin 1) j) = b (ix1 j)) :
    (dat2 (F := Ideal) V c).arrAt 5 cfg2.N
      = addf (V c (Pipeline.arrRef spec2 1)) (Cert.Spec.edgeLin (V c (Pipeline.arrRef spec2 0)) (V c (Pipeline.arrRef spec2 2)) b) :=
  (dat2 (F := Ideal) V c).arrAt_eq_of_cover 5 _ (fun t _ => by
    show (cfg2.win 5).cut (grid2.coords t) ((dat2 (F := Ideal) V c).after 5 t) = _
    dsimp only [dat2]
    exact blk0_5 t (V c (Pipeline.arrRef spec2 0)) (V c (Pipeline.arrRef spec2 1)) (V c (Pipeline.arrRef spec2 2)) (V c (Pipeline.arrRef spec2 3)) b hb) cover0_4

end Cert.KernelIdeal.Hand

end
-- ==== Proof.KI.Val3.lean ====
import proofs.«403104_j60447369724153_2_alg».proof.Proof.KI.Reg3
import proofs.«403104_j60447369724153_2_alg».proof.Proof.KI.Val1

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix1 ix2)

variable (V : (c : Dev nD) → (b : Ref sig .tc) → Buf (Elt Ideal) ((c : Thread nD τ).loc b))

-- Region 3 leaves what region 1 leaves, block for block, over its own arrays.
theorem arr3_3 (c : Dev nD) (b : Cert.Spec.Arr Cert.ReferenceIdeal.S128)
    (hb : ∀ j : Fin 128, (V c (Pipeline.arrRef spec3 2) : S1x128.Idx → EReal) (ix2 (0 : Fin 1) j) = b (ix1 j)) :
    (dat3 (F := Ideal) V c).arrAt 3 cfg3.N = Cert.Spec.nodeAct (V c (Pipeline.arrRef spec3 0)) (V c (Pipeline.arrRef spec3 1)) b :=
  (dat3 (F := Ideal) V c).arrAt_eq_of_cover 3 _ (fun t _ => by
    show (cfg3.win 3).cut (grid3.coords t) ((dat3 (F := Ideal) V c).after 3 t) = _
    dsimp only [dat3]
    exact blk1_3 t (V c (Pipeline.arrRef spec3 0)) (V c (Pipeline.arrRef spec3 1)) (V c (Pipeline.arrRef spec3 2)) b hb) covered1_3

end Cert.KernelIdeal.Hand

end
-- ==== Proof.KI.Val4Pieces.lean ====
import proofs.«403104_j60447369724153_2_alg».proof.Proof.KI.Reg4
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hzPool : (![0, 0] : Fin 2 → Nat) = fun _ => 0 := funext fun a => by fin_cases a <;> rfl

section
variable {Val : EltTy → Type} [∀ e, Nonempty (Val e)] {d : Fin 2 → ℕ} {e : EltTy}

/-- A whole block of two axes read from, or stored last at, offset zero is the block itself. -/
theorem ld0 (inb) (X : (⟨2, d⟩ : Shape).Idx → Val e) : View.ld X (Rect.unit ![0, 0] _ inb) = X := View.ld_unit_zero hzPool inb X
theorem canon0 (inb) (w : (⟨2, d⟩ : Shape).Idx → Val e) (L : List (View.Piece Val ⟨2, d⟩ e)) :
    View.canon (⟨Rect.unit ![0, 0] _ inb, w⟩ :: L) = w := View.canon_cons_unit_zero hzPool inb w L
theorem readCov0 {sig : RefSig} {κ : Kind} {sp : Space} (v : View sig κ sp ⟨2, d⟩ e) (inb) (w : (⟨2, d⟩ : Shape).Idx → Val e) :
    v.readCov [⟨Rect.unit ![0, 0] _ inb, w⟩] (Rect.unit ![0, 0] _ inb).toLoadRect = w := View.readCov_unit_zero v hzPool inb w
end

variable (c : Dev nD) (i : grid4.Coords) (arg1 : Memref sig .tc .vmem S2000x128 .f32) (harg1 : arg1.IsWhole) (arg2 : Memref sig .tc .vmem S2000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x1 .f32) (harg7 : arg7.IsWhole)

/-- At the first point both accumulators are reset and then take the block's contribution. -/
theorem sout4_A_eq (hc0 : cond4_0 i) (hc1 : ¬cond4_1 i) (x0 : Vec F S2000x128 .f32) (x1 : Vec F S2000x1 .i32) (x2 : Vec F S128x1 .f32) (x3 : Vec F S1x1 .f32) :
    (outs4_A c i arg1 harg1 arg2 harg2 arg3 harg3 arg4 harg4 arg5 harg5 arg6 harg6 arg7 harg7 hc0 hc1 x0 x1 x2 x3).2.1 = k4_pay4 x1 x0 k4_pay1 ∧ (outs4_A c i arg1 harg1 arg2 harg2 arg3 harg3 arg4 harg4 arg5 harg5 arg6 harg6 arg7 harg7 hc0 hc1 x0 x1 x2 x3).2.2 = k4_pay5 x1 k4_pay2 := by
  unfold outs4_A back
  dsimp only
  rw [View.read_writes_eq_canon _ _ _ (fun _ => scover4_A_0 ..), View.read_writes_eq_canon _ _ _ (fun _ => scover4_A_1 ..)]
  unfold kernelRun4_A
  dsimp only
  (try sl_unfold_words)
  simp only [canon0, readCov0, ld0, View.readAt_eq_ld, Memref.IsWhole.read_unread, and_self]

/-- At a middle point each accumulator takes the block's contribution over what it held. -/
theorem sout4_B_eq (hc0 : ¬cond4_0 i) (hc1 : ¬cond4_1 i) (x0 : Vec F S2000x128 .f32) (x1 : Vec F S2000x1 .i32) (x2 : Vec F S128x1 .f32) (x3 : Vec F S1x1 .f32) (xs0 : Vec F S512x128 .f32) (xs1 : Vec F S512x1 .f32) :
    (outs4_B c i arg1 harg1 arg2 harg2 arg3 harg3 arg4 harg4 arg5 harg5 arg6 harg6 arg7 harg7 hc0 hc1 x0 x1 x2 x3 xs0 xs1).2.1 = k4_pay4 x1 x0 xs0 ∧ (outs4_B c i arg1 harg1 arg2 harg2 arg3 harg3 arg4 harg4 arg5 harg5 arg6 harg6 arg7 harg7 hc0 hc1 x0 x1 x2 x3 xs0 xs1).2.2 = k4_pay5 x1 xs1 := by
  unfold outs4_B back
  dsimp only
  rw [View.read_writes_eq_canon _ _ _ (fun _ => scover4_B_0 ..), View.read_writes_eq_canon _ _ _ (fun _ => scover4_B_1 ..)]
  unfold kernelRun4_B
  dsimp only
  (try sl_unfold_words)
  simp only [canon0, readCov0, ld0, View.readAt_eq_ld, Memref.IsWhole.read_unread, and_self]

/-- At the last point likewise, and the output is the readout of the two accumulators. -/
theorem sout4_C_eq (hc0 : ¬cond4_0 i) (hc1 : cond4_1 i) (x0 : Vec F S2000x128 .f32) (x1 : Vec F S2000x1 .i32) (x2 : Vec F S128x1 .f32) (x3 : Vec F S1x1 .f32) (xs0 : Vec F S512x128 .f32) (xs1 : Vec F S512x1 .f32) :
    ((outs4_C c i arg1 harg1 arg2 harg2 arg3 harg3 arg4 harg4 arg5 harg5 arg6 harg6 arg7 harg7 hc0 hc1 x0 x1 x2 x3 xs0 xs1).2.1 = k4_pay4 x1 x0 xs0 ∧ (outs4_C c i arg1 harg1 arg2 harg2 arg3 harg3 arg4 harg4 arg5 harg5 arg6 harg6 arg7 harg7 hc0 hc1 x0 x1 x2 x3 xs0 xs1).2.2 = k4_pay5 x1 xs1)
    ∧ (outs4_C c i arg1 harg1 arg2 harg2 arg3 harg3 arg4 harg4 arg5 harg5 arg6 harg6 arg7 harg7 hc0 hc1 x0 x1 x2 x3 xs0 xs1).1 = k4_pay6 (k4_pay4 x1 x0 xs0) (k4_pay5 x1 xs1) x2 x3 := by
  unfold outs4_C back
  dsimp only
  rw [View.read_writes_eq_canon _ _ _ (fun _ => scover4_C_0 ..), View.read_writes_eq_canon _ _ _ (fun _ => scover4_C_1 ..),
    View.read_writes_eq_canon _ _ _ (fun _ => cover4_C_4 ..)]
  unfold kernelRun4_C
  dsimp only
  (try sl_unfold_words)
  simp only [canon0, readCov0, ld0, View.readAt_eq_ld, Memref.IsWhole.read_unread, and_self]

end Cert.KernelIdeal.Hand

end
-- ==== Proof.PoolSpec.lean ====
import proofs.«403104_j60447369724153_2_alg».proof.Proof.Spec
import Idealize.ShloMosaic.Lib.ValueIdx

noncomputable section

namespace Cert.Spec

open Cert.ReferenceIdeal Idealize.ShloMosaic Idealize.ShloMosaic.ValueIdx
open scoped BigOperators

def oneHot (w : BitVec 32) (g : Fin 512) : EReal := if w = BitVec.ofNat 32 g.val then 1 else 0

abbrev oneW : EReal := Ideal.ofBits .f32 0x3F800000#32

def rowSum (x : Arr S50000x128) (gid : IArr S50000) (g : Fin 512) (d : Fin 128) : EReal :=
  ∑ n : Fin 50000, oneHot (gid (ix1 n)) g * x (ix2 n d)

def rowCnt (gid : IArr S50000) (g : Fin 512) : EReal :=
  ∑ n : Fin 50000, oneHot (gid (ix1 n)) g * oneW

def readout (x : Arr S50000x128) (gid : IArr S50000) (fcw : Arr S128x1) (fcb : Arr S1) (g : Fin 512) : EReal :=
  (∑ d : Fin 128, Ideal.div (rowSum x gid g d) (max (rowCnt gid g) oneW) * fcw (ix2 d (0 : Fin 1))) + fcb (ix1 (0 : Fin 1))

end Cert.Spec

end
-- ==== Proof.LibBlockSum.lean ====
import Mathlib.Algebra.BigOperators.Fin
import Mathlib.Algebra.BigOperators.Intervals

open scoped BigOperators

namespace Cert.LibBlockSum

variable {β : Type*} [AddCommMonoid β]

theorem sum_range_succ_block_fin (g : ℕ → β) (B n : ℕ) :
    ∑ i ∈ Finset.range (B * (n + 1)), g i = ∑ i ∈ Finset.range (B * n), g i + ∑ k : Fin B, g (B * n + k.val) := by
  rw [Nat.mul_succ, Finset.sum_range_add, Fin.sum_univ_eq_sum_range (fun k => g (B * n + k)) B]

-- A sum accumulated one block of B terms at a time is the sum over the prefix the blocks cover.
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.PoolKernel.lean ====
import proofs.«403104_j60447369724153_2_alg».proof.Proof.Gen.KernelIdeal.Skeleton
import proofs.«403104_j60447369724153_2_alg».proof.Proof.PoolSpec
import proofs.«403104_j60447369724153_2_alg».proof.Proof.LibBlockSum
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Hand

open Cert.KernelIdeal Cert.KernelIdeal.Gen Idealize.ShloMosaic Idealize.ShloMosaic.ValueIdx
open scoped BigOperators

theorem sitofp_cmpi_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h; rw [if_pos rfl, show (IntOp.cmpi .eq a a).setWidth 32 = 1#32 by simp [IntOp.cmpi]]; norm_num
  · rw [if_neg h, show (IntOp.cmpi .eq a b).setWidth 32 = 0#32 by simp [IntOp.cmpi, beq_eq_false_iff_ne.2 h]]; norm_num

theorem pay3_apply (g : IVec S2000x1 32) (r : Fin 2000) (j : Fin 512) :
    k4_pay3 (F := Ideal) g (ix2 r j) = Cert.Spec.oneHot (g (ix2 r (0 : Fin 1))) j := by
  unfold k4_pay3
  show FloatOps.sitofp (F := Ideal) .f32 ((IntOp.cmpi .eq
      (broadcastTo S2000x512 (shapeCast S2000x1 g shapeCasts_S2000x1_S2000x1) broadcasts_S2000x1_S2000x512 (ix2 r j))
      (iota .tc S2000x512 32 [1] iota_S2000x512_d1_w32 (ix2 r j))).setWidth 32) = _
  rw [shapeCast_self, iota_single_apply,
    broadcastTo_apply g broadcasts_S2000x1_S2000x512 (ix2 r j) (ix2 r (0 : Fin 1)) (fun a => match a with
      | ⟨0, _⟩ => rfl
      | ⟨1, _⟩ => rfl),
    sitofp_cmpi_eq]
  rfl

-- The product that contracts the first axis of both operands, into a zero accumulator: column a of A against column b of B.
theorem matmul_tn_apply {m k n : Nat} {φ₁ φ₂ : FTy}
    (w : DotDims.WF ⟨2, ![k, m]⟩ ⟨2, ![k, n]⟩ ⟨2, ![m, n]⟩ [0] [0] [1] [1] [] []) (prec : Option ContractPrecision)
    (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant ⟨2, ![m, n]⟩ .f32 0x00000000#32) (ix2 a b)
      = ∑ c : Fin k, A (ix2 c a) * B (ix2 c b) := by
  rw [Ideal.matmul_constant_zero_apply, ← Equiv.sum_comp (contrEquiv1 (⟨[0], [0], [1], [1], [], [], w⟩ : DotDims _ _ _) k rfl rfl).symm]
  refine Finset.sum_congr rfl fun c _ => ?_
  have hc := contrEquiv1_symm_val (⟨[0], [0], [1], [1], [], [], w⟩ : DotDims ⟨2, ![k, m]⟩ ⟨2, ![k, n]⟩ ⟨2, ![m, n]⟩) k rfl rfl c
  have el : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a :=
    Shape.idx_ext₂ ((DotDims.lhsIdx_val_of_single _ rfl _ _).trans hc) rfl
  have er : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b :=
    Shape.idx_ext₂ ((DotDims.rhsIdx_val_of_single _ rfl _ _).trans hc) rfl
  rw [el, er]

theorem pay4_apply (g : IVec S2000x1 32) (x : FVec Ideal S2000x128 .f32) (a : FVec Ideal S512x128 .f32) (j : Fin 512) (d : Fin 128) :
    k4_pay4 (F := Ideal) g x a (ix2 j d)
      = a (ix2 j d) + ∑ r : Fin 2000, Cert.Spec.oneHot (g (ix2 r (0 : Fin 1))) j * x (ix2 r d) := by
  unfold k4_pay4
  simp only [matmul]
  rw [shapeCast_self, shapeCast_self]
  exact (congrArg (a (ix2 j d) + ·) (matmul_tn_apply _ _ (k4_pay3 g) x j d)).trans (by simp only [pay3_apply])

theorem pay5_apply (g : IVec S2000x1 32) (n : FVec Ideal S512x1 .f32) (j : Fin 512) :
    k4_pay5 (F := Ideal) g n (ix2 j (0 : Fin 1))
      = n (ix2 j (0 : Fin 1)) + ∑ r : Fin 2000, Cert.Spec.oneHot (g (ix2 r (0 : Fin 1))) j * Cert.Spec.oneW := by
  unfold k4_pay5
  simp only [matmul]
  rw [shapeCast_self]
  exact (congrArg (n (ix2 j (0 : Fin 1)) + ·) (matmul_tn_apply _ _ (k4_pay3 g) _ j (0 : Fin 1))).trans (by simp only [pay3_apply]; rfl)

theorem pay1_apply (i : S512x128.Idx) : k4_pay1 (F := Ideal) i = 0 := by
  unfold k4_pay1
  rw [shapeCast_self]
  exact Ideal.ofBits_zero_f32

theorem pay2_apply (i : S512x1.Idx) : k4_pay2 (F := Ideal) i = 0 := by
  unfold k4_pay2
  rw [shapeCast_self]
  exact Ideal.ofBits_zero_f32

-- The block product into a zero accumulator is the plain product of the two matrices.
theorem matmul_out_apply (A : FVec Ideal S512x128 .f32) (W : FVec Ideal S128x1 .f32) (j : Fin 512) :
    FloatOps.matmul dot_S512x128_S128x1_S512x1_1_0_0_1_n_n (some .fp32) A W (constant S512x1 .f32 0x00000000#32) (ix2 j (0 : Fin 1))
      = ∑ k : Fin 128, A (ix2 j k) * W (ix2 k (0 : Fin 1)) :=
  (Ideal.matmul_constant_zero_apply _ _ A W _).trans
    ((Ideal.dotGeneral_apply _ none _ A W _).symm.trans (StackMember.dotGeneral_plain_apply none A W j (0 : Fin 1)))

theorem bcast_col_apply (v : FVec Ideal S512x1 .f32) (j : Fin 512) (k : Fin 128) :
    broadcastTo S512x128 v broadcasts_S512x1_S512x128 (ix2 j k) = v (ix2 j (0 : Fin 1)) :=
  broadcastTo_apply v broadcasts_S512x1_S512x128 (ix2 j k) (ix2 j (0 : Fin 1)) (fun a => match a with
    | ⟨0, _⟩ => rfl
    | ⟨1, _⟩ => rfl)

theorem pay6_apply (a : FVec Ideal S512x128 .f32) (n : FVec Ideal S512x1 .f32) (w : FVec Ideal S128x1 .f32) (b : FVec Ideal S1x1 .f32) (j : Fin 512) :
    k4_pay6 (F := Ideal) a n w b (ix2 j (0 : Fin 1))
      = (∑ d : Fin 128, Ideal.div (a (ix2 j d)) (max (n (ix2 j (0 : Fin 1))) Cert.Spec.oneW) * w (ix2 d (0 : Fin 1)))
        + b (ix2 (0 : Fin 1) (0 : Fin 1)) := by
  unfold k4_pay6
  simp only [matmul]
  rw [shapeCast_self, addf_apply, matmul_out_apply, broadcastTo_1b_ab_apply]
  refine congrArg (· + b (ix2 (0 : Fin 1) (0 : Fin 1))) (Finset.sum_congr rfl fun d _ => ?_)
  rw [divf_apply, bcast_col_apply]
  rfl

def sumTerm (x : Cert.Spec.Arr Cert.ReferenceIdeal.S50000x128) (gid : Cert.Spec.IArr Cert.ReferenceIdeal.S50000)
    (j : Fin 512) (d : Fin 128) (i : ℕ) : EReal :=
  if h : i < 50000 then Cert.Spec.oneHot (gid (ix1 ⟨i, h⟩)) j * x (ix2 ⟨i, h⟩ d) else 0

-- Adding, block after block of 2000 rows, the one-hot weighted entries of column d of x gives the weighted sum over all 50000 rows; the count is the case x ≡ 1.
theorem fold_rows (x : Cert.Spec.Arr Cert.ReferenceIdeal.S50000x128) (gid : Cert.Spec.IArr Cert.ReferenceIdeal.S50000)
    (gb : (t : ℕ) → t < 25 → IVec S2000x1 32)
    (hg : ∀ t (h : t < 25) (r : Fin 2000), gb t h (ix2 r (0 : Fin 1)) = gid (ix1 ⟨2000 * t + r.val, by omega⟩))
    (j : Fin 512) (d : Fin 128) (y : (t : ℕ) → t < 25 → Fin 2000 → EReal)
    (hy : ∀ t (h : t < 25) (r : Fin 2000), y t h r = x (ix2 ⟨2000 * t + r.val, by omega⟩ d)) (v : (t : ℕ) → t < 25 → EReal)
    (h0 : ∀ h, v 0 h = 0 + ∑ r : Fin 2000, Cert.Spec.oneHot (gb 0 h (ix2 r (0 : Fin 1))) j * y 0 h r)
    (hs : ∀ t (h : t + 1 < 25), v (t + 1) h
      = v t (Nat.lt_of_succ_lt h) + ∑ r : Fin 2000, Cert.Spec.oneHot (gb (t + 1) h (ix2 r (0 : Fin 1))) j * y (t + 1) h r) :
    v 24 (by decide) = Cert.Spec.rowSum x gid j d := by
  have hS : ∀ t (h : t < 25) (r : Fin 2000),
      Cert.Spec.oneHot (gb t h (ix2 r (0 : Fin 1))) j * y t h r = sumTerm x gid j d (2000 * t + r.val) := fun t h r => by
    unfold sumTerm
    rw [dif_pos (by omega : 2000 * t + r.val < 50000), hg t h r, hy t h r]
  refine (Cert.LibBlockSum.fold_eq_total (sumTerm x gid j d) 2000 (M := 50000) (N := 25) v
    (fun h => (h0 h).trans (congrArg (0 + ·) (Finset.sum_congr rfl fun r _ => hS 0 h r)))
    (fun t h => (hs t h).trans (congrArg (v t (Nat.lt_of_succ_lt h) + ·) (Finset.sum_congr rfl fun r _ => hS (t + 1) h r)))
    24 (by decide) (by norm_num)).trans (Finset.sum_congr rfl fun n _ => ?_)
  unfold sumTerm
  rw [dif_pos n.isLt]

theorem pool_fold (x : Cert.Spec.Arr Cert.ReferenceIdeal.S50000x128) (gid : Cert.Spec.IArr Cert.ReferenceIdeal.S50000)
    (gb : (t : ℕ) → t < 25 → IVec S2000x1 32) (xb : (t : ℕ) → t < 25 → FVec Ideal S2000x128 .f32)
    (hg : ∀ t (h : t < 25) (r : Fin 2000), gb t h (ix2 r (0 : Fin 1)) = gid (ix1 ⟨2000 * t + r.val, by omega⟩))
    (hx : ∀ t (h : t < 25) (r : Fin 2000) (d : Fin 128), xb t h (ix2 r d) = x (ix2 ⟨2000 * t + r.val, by omega⟩ d))
    (acc : (t : ℕ) → t < 25 → FVec Ideal S512x128 .f32) (cnt : (t : ℕ) → t < 25 → FVec Ideal S512x1 .f32)
    (ha0 : ∀ h, acc 0 h = k4_pay4 (gb 0 h) (xb 0 h) k4_pay1) (ha : ∀ t (h : t + 1 < 25), acc (t + 1) h = k4_pay4 (gb (t + 1) h) (xb (t + 1) h) (acc t (Nat.lt_of_succ_lt h)))
    (hc0 : ∀ h, cnt 0 h = k4_pay5 (gb 0 h) k4_pay2) (hc : ∀ t (h : t + 1 < 25), cnt (t + 1) h = k4_pay5 (gb (t + 1) h) (cnt t (Nat.lt_of_succ_lt h)))
    (j : Fin 512) : (∀ d : Fin 128, acc 24 (by decide) (ix2 j d) = Cert.Spec.rowSum x gid j d) ∧ cnt 24 (by decide) (ix2 j (0 : Fin 1)) = Cert.Spec.rowCnt gid j :=
  ⟨fun d => fold_rows x gid gb hg j d (fun t h r => xb t h (ix2 r d)) (fun t h r => hx t h r d) (fun t h => acc t h (ix2 j d))
      (fun h => by show acc 0 h (ix2 j d) = _; rw [ha0 h, pay4_apply, pay1_apply])
      (fun t h => by show acc (t + 1) h (ix2 j d) = _; rw [ha t h, pay4_apply]),
    fold_rows (fun _ => Cert.Spec.oneW) gid gb hg j 0 (fun _ _ _ => Cert.Spec.oneW) (fun _ _ _ => rfl) (fun t h => cnt t h (ix2 j (0 : Fin 1)))
      (fun h => by show cnt 0 h (ix2 j (0 : Fin 1)) = _; rw [hc0 h, pay5_apply, pay2_apply])
      (fun t h => by show cnt (t + 1) h (ix2 j (0 : Fin 1)) = _; rw [hc t h, pay5_apply])⟩

end Cert.KernelIdeal.Hand

end
-- ==== Proof.PoolRef.lean ====
import proofs.«403104_j60447369724153_2_alg».proof.Proof.PoolSpec
import Idealize.ShloMosaic.Lib.Pipeline.Value
import Idealize.ShloMosaic.Lib.ValueIdxRank1
import Idealize.ShloMosaic.Lib.IdealHost
import Idealize.ShloMosaic.Lib.StackMember
import Idealize.ShloMosaic.Lib.StableHlo.Predicate
import Idealize.ShloMosaic.PureOps.Ideal.Laws

noncomputable section

namespace Cert.Spec

open Cert.ReferenceIdeal Cert.ReferenceIdeal.Gen Idealize.ShloMosaic Idealize.ShloMosaic.ValueIdx
open scoped BigOperators

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h, Option.some.injEq]
    constructor
    · rintro rfl a
      have := (h a).1
      show _ = (((d.start j idx a + d.window j a).toNat : Nat) : Int)
      omega
    · intro hi
      funext a
      refine Fin.ext ?_
      have := hi a
      show (d.start j idx a + d.window j a).toNat = (i a).val
      omega
  · rw [dif_neg h]
    constructor
    · intro h'; cases h'
    · intro hi
      exact absurd (fun a => ⟨by have := hi a; omega, by have := hi a; have := (i a).isLt; omega⟩) h

theorem toInt_eq_iff (w : BitVec 32) (g : Fin 512) : w.toInt = (g.val : Int) ↔ w = BitVec.ofNat 32 g.val := by
  have hg : (BitVec.ofNat 32 g.val).toInt = (g.val : Int) :=
    StableHlo.Predicate.toInt_ofNat_small g.val (by have := g.isLt; omega)
  rw [← hg]
  exact BitVec.toInt_inj

theorem oneHot_eq (w : BitVec 32) (g : Fin 512) : oneHot w g = if w.toInt = (g.val : Int) then 1 else 0 := by
  unfold oneHot
  by_cases h : w = BitVec.ofNat 32 g.val
  · rw [if_pos h, if_pos ((toInt_eq_iff w g).2 h)]
  · rw [if_neg h, if_neg (fun h' => h ((toInt_eq_iff w g).1 h'))]

theorem gidCol_apply (gid : IArr S50000) (n : Fin 50000) :
    broadcastInDim S50000x1 ![0] bcast_S50000_S50000x1_0 gid (ix2 n (0 : Fin 1)) = gid (ix1 n) :=
  broadcastInDim_apply _ bcast_S50000_S50000x1_0 gid (ix2 n (0 : Fin 1)) (ix1 n) (fun a => match a with
    | ⟨0, _⟩ => rfl)

-- On an operand axis that the index map names and no window axis covers, an update lands at its index, read as a signed integer.
theorem off_idx {s si u : Shape} (d : ScatterDims s si u) {w : Nat} (j : u.Idx) (idx : IVec si w) (a : Fin s.rank)
    (ha : a ∈ d.scatterDimsToOperandDims) (hk : a ∉ d.sKept) (i : si.Idx)
    (hi : d.siIdx j ⟨d.scatterDimsToOperandDims.idxOf a, List.idxOf_lt_length_iff.2 ha⟩ = i) :
    d.start j idx a + (d.window j a : Int) = (idx i).toInt := by
  unfold ScatterDims.start ScatterDims.window
  rw [dif_pos ha, dif_neg hk, hi]
  simp

theorem sum_off0 (idx : IVec S50000x1 32) (n : Fin 50000) (d' : Fin 128) :
    scatter_S512x128_S50000x1_S50000x128_1_0_0_1.start (ix2 n d') idx 0
      + (scatter_S512x128_S50000x1_S50000x128_1_0_0_1.window (ix2 n d') 0 : Int) = (idx (ix2 n (0 : Fin 1))).toInt :=
  off_idx _ _ idx 0 (by decide) (by decide) _ (Shape.idx_ext₂ rfl rfl)

theorem sum_off1 (idx : IVec S50000x1 32) (n : Fin 50000) (d' : Fin 128) :
    scatter_S512x128_S50000x1_S50000x128_1_0_0_1.start (ix2 n d') idx 1
      + (scatter_S512x128_S50000x1_S50000x128_1_0_0_1.window (ix2 n d') 1 : Int) = (d'.val : Int) := by
  unfold ScatterDims.start ScatterDims.window
  rw [dif_neg (show ¬(1 : Fin S512x128.rank) ∈ scatter_S512x128_S50000x1_S50000x128_1_0_0_1.scatterDimsToOperandDims by decide),
    dif_pos (show (1 : Fin S512x128.rank) ∈ scatter_S512x128_S50000x1_S50000x128_1_0_0_1.sKept by decide)]
  rw [zero_add]
  rfl

theorem poolSum_apply (x : Arr S50000x128) (gid : IArr S50000) (g : Fin 512) (d : Fin 128) :
    poolSum x gid (ix2 g d) = rowSum x gid g d := by
  unfold poolSum rowSum Host.scatterAdd
  rw [Ideal.hostScatterAdd_def]
  unfold Ideal.hostScatterAdd
  rw [broadcastInDim_scalar_apply, constant_apply, Ideal.ofBits_zero_f32, zero_add, Finset.sum_filter, sum_idx2]
  refine Finset.sum_congr rfl fun n _ => ?_
  simp only [resultIdx?_eq_some_iff, Fin.forall_fin_two, sum_off0, sum_off1, Nat.cast_inj, Fin.val_inj, oneHot_eq]
  rw [gidCol_apply]
  by_cases hn : (gid (ix1 n)).toInt = (g.val : Int)
  · simp only [hn, true_and, if_true, Finset.sum_ite_eq', Finset.mem_univ, one_mul]
  · simp only [hn, false_and, if_false, Finset.sum_const_zero, zero_mul]

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem cnt_off0 (idx : IVec S50000x1 32) (n : Fin 50000) :
    scatter_S512_S50000x1_S50000_n_0_0_1.start (ix1 n) idx 0
      + (scatter_S512_S50000x1_S50000_n_0_0_1.window (ix1 n) 0 : Int) = (idx (ix2 n (0 : Fin 1))).toInt :=
  off_idx _ _ idx 0 (by decide) (by decide) _ (Shape.idx_ext₂ rfl rfl)

theorem poolCnt_apply (gid : IArr S50000) (g : Fin 512) : poolCnt gid (ix1 g) = rowCnt gid g := by
  unfold poolCnt rowCnt Host.scatterAdd
  rw [Ideal.hostScatterAdd_def]
  unfold Ideal.hostScatterAdd
  rw [broadcastInDim_scalar_apply, constant_apply, Ideal.ofBits_zero_f32, zero_add, Finset.sum_filter, sum_idx1]
  refine Finset.sum_congr rfl fun n _ => ?_
  simp only [resultIdx?_eq_some_iff, Fin.forall_fin_one, cnt_off0, oneHot_eq]
  rw [gidCol_apply, broadcastInDim_scalar_apply, constant_apply]
  by_cases hn : (gid (ix1 n)).toInt = (g.val : Int)
  · rw [if_pos hn, if_pos hn, one_mul]
  · rw [if_neg hn, if_neg hn, zero_mul]

theorem den_apply (c : Arr S512) (g : Fin 512) (k : Fin 128) :
    broadcastInDim S512x128 ![0, 1] bcast_S512x1_S512x128_0_1 (broadcastInDim S512x1 ![0] bcast_S512_S512x1_0 c) (ix2 g k)
      = c (ix1 g) := by
  rw [broadcastInDim_apply _ bcast_S512x1_S512x128_0_1 _ (ix2 g k) (ix2 g (0 : Fin 1)) (fun a => match a with
    | ⟨0, _⟩ => rfl
    | ⟨1, _⟩ => rfl)]
  exact broadcastInDim_apply _ bcast_S512_S512x1_0 c (ix2 g (0 : Fin 1)) (ix1 g) (fun a => match a with
    | ⟨0, _⟩ => rfl)

theorem bias_apply (fcb : Arr S1) (g : Fin 512) :
    broadcastInDim S512x1 ![0, 1] bcast_S1x1_S512x1_0_1 (broadcastInDim S1x1 ![1] bcast_S1_S1x1_1 fcb) (ix2 g (0 : Fin 1))
      = fcb (ix1 (0 : Fin 1)) := by
  rw [broadcastInDim_apply _ bcast_S1x1_S512x1_0_1 _ (ix2 g (0 : Fin 1)) (ix2 (0 : Fin 1) (0 : Fin 1)) (fun a => match a with
    | ⟨0, _⟩ => rfl
    | ⟨1, _⟩ => rfl)]
  exact broadcastInDim_apply _ bcast_S1_S1x1_1 fcb (ix2 (0 : Fin 1) (0 : Fin 1)) (ix1 (0 : Fin 1)) (fun a => match a with
    | ⟨0, _⟩ => rfl)

theorem col_apply (y : Arr S512x1) (g : Fin 512) :
    shapeCast S512 y shapeCasts_S512x1_S512 (ix1 g) = y (ix2 g (0 : Fin 1)) :=
  shapeCast_apply y shapeCasts_S512x1_S512 (ix1 g) (ix2 g (0 : Fin 1))
    (by rewrite [Shape.rowMajor_val_two, Shape.rowMajor_val_one]; show g.val * 1 + 0 = g.val; omega)

theorem dot_apply (y : Arr S512x128) (w : Arr S128x1) (g : Fin 512) :
    Host.dotGeneral dot_S512x128_S128x1_S512x1_1_0_0_1_n_n none y w (ix2 g (0 : Fin 1))
      = ∑ k : Fin 128, y (ix2 g k) * w (ix2 k (0 : Fin 1)) :=
  StackMember.dotGeneral_plain_apply none y w g (0 : Fin 1)

theorem pool_apply (x : Arr S50000x128) (gid : IArr S50000) (fcw : Arr S128x1) (fcb : Arr S1) (g : Fin 512) :
    pool x gid fcw fcb (ix1 g) = readout x gid fcw fcb g := by
  unfold pool readout
  generalize hs : poolSum x gid = s
  generalize hc : poolCnt gid = c
  rw [col_apply, addf_apply, dot_apply, bias_apply]
  refine congrArg (· + fcb (ix1 (0 : Fin 1))) (Finset.sum_congr rfl fun k _ => ?_)
  refine congrArg (· * fcw (ix2 k (0 : Fin 1))) ?_
  show Ideal.div (s (ix2 g k)) _ = _
  rw [den_apply, maximumf_apply, broadcastInDim_scalar_apply, constant_apply, ← hs, ← hc, poolSum_apply, poolCnt_apply]

end Cert.Spec

end
-- ==== Proof.KI.Val4.lean ====
import proofs.«403104_j60447369724153_2_alg».proof.Proof.KI.Val4Pieces
import proofs.«403104_j60447369724153_2_alg».proof.Proof.PoolKernel
import proofs.«403104_j60447369724153_2_alg».proof.Proof.PoolRef
import proofs.«403104_j60447369724153_2_alg».proof.Proof.PoolSpec
import proofs.«403104_j60447369724153_2_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

abbrev xarr (c : Dev nD) : FVec Ideal S50000x128 .f32 := V c (Pipeline.arrRef spec4 0)
abbrev garr (c : Dev nD) : IVec S50000x1 32 := V c (Pipeline.arrRef spec4 1)
abbrev warr (c : Dev nD) : FVec Ideal S128x1 .f32 := V c (Pipeline.arrRef spec4 2)
abbrev barr (c : Dev nD) : FVec Ideal S1x1 .f32 := V c (Pipeline.arrRef spec4 3)
abbrev xblk (c : Dev nD) (t : Fin cfg4.N) : FVec Ideal S2000x128 .f32 := iblk4 V c 0 t
abbrev gblk (c : Dev nD) (t : Fin cfg4.N) : IVec S2000x1 32 := iblk4 V c 1 t
abbrev wblk (c : Dev nD) (t : Fin cfg4.N) : FVec Ideal S128x1 .f32 := iblk4 V c 2 t
abbrev bblk (c : Dev nD) (t : Fin cfg4.N) : FVec Ideal S1x1 .f32 := iblk4 V c 3 t

abbrev pt4 (t : ℕ) (h : t < 25) : Fin cfg4.N := ⟨t, lt_of_lt_of_eq h N_4.symm⟩

/-- By evaluating the index maps at each of the twenty-five grid points. -/
theorem idx4 : ∀ t : Fin cfg4.N, (win4_0.index t 0 = t.val ∧ win4_0.index t 1 = 0) ∧ (win4_1.index t 0 = t.val ∧ win4_1.index t 1 = 0)
    ∧ (win4_2.index t 0 = 0 ∧ win4_2.index t 1 = 0) ∧ win4_3.index t 0 = 0 ∧ win4_3.index t 1 = 0 :=
  (by decide +kernel : ∀ t : Fin grid4.N, _)

/-- Block t of the node rows, and of the graph ids, is rows 2000·t … of the array; -/
theorem xblk_apply (c : Dev nD) (t : Fin cfg4.N) (r : Fin 2000) (d : Fin 128) (hr : 2000 * t.val + r.val < 50000) :
    xblk V c t (ix2 r d) = xarr V c (ix2 ⟨2000 * t.val + r.val, hr⟩ d) := by
  obtain ⟨⟨e0, e1⟩, -⟩ := idx4 t
  show V c (Pipeline.arrRef spec4 0) _ = V c (Pipeline.arrRef spec4 0) _
  congr 1
  exact Shape.idx_ext₂ (by show win4_0.index t 0 * 2000 + 1 * r.val = 2000 * t.val + r.val; rw [e0]; omega)
    (win4_0.rect_emb_val_of_index_zero t 1 e1 _)

theorem gblk_apply (c : Dev nD) (t : Fin cfg4.N) (r : Fin 2000) (hr : 2000 * t.val + r.val < 50000) :
    gblk V c t (ix2 r (0 : Fin 1)) = garr V c (ix2 ⟨2000 * t.val + r.val, hr⟩ (0 : Fin 1)) := by
  obtain ⟨-, ⟨e0, e1⟩, -⟩ := idx4 t
  show V c (Pipeline.arrRef spec4 1) _ = V c (Pipeline.arrRef spec4 1) _
  congr 1
  exact Shape.idx_ext₂ (by show win4_1.index t 0 * 2000 + 1 * r.val = 2000 * t.val + r.val; rw [e0]; omega)
    (win4_1.rect_emb_val_of_index_zero t 1 e1 _)

/-- the readout weights' and the bias's block is the whole array. -/
theorem wblk_apply (c : Dev nD) (t : Fin cfg4.N) (y : S128x1.Idx) : wblk V c t y = warr V c y := by
  obtain ⟨-, -, ⟨e0, e1⟩, -⟩ := idx4 t
  show V c (Pipeline.arrRef spec4 2) _ = V c (Pipeline.arrRef spec4 2) _
  congr 1
  exact Shape.idx_ext₂ (win4_2.rect_emb_val_of_index_zero t 0 e0 y) (win4_2.rect_emb_val_of_index_zero t 1 e1 y)

theorem bblk_apply (c : Dev nD) (t : Fin cfg4.N) (y : S1x1.Idx) : bblk V c t y = barr V c y := by
  obtain ⟨-, -, -, e0, e1⟩ := idx4 t
  show V c (Pipeline.arrRef spec4 3) _ = V c (Pipeline.arrRef spec4 3) _
  congr 1
  exact Shape.idx_ext₂ (win4_3.rect_emb_val_of_index_zero t 0 e0 y) (win4_3.rect_emb_val_of_index_zero t 1 e1 y)

def acc4 (c : Dev nD) (t : ℕ) (h : t < 25) : FVec Ideal S512x128 .f32 := (outsAt4 V c t (pt4 t h).isLt).2.1

def cnt4 (c : Dev nD) (t : ℕ) (h : t < 25) : FVec Ideal S512x1 .f32 := (outsAt4 V c t (pt4 t h).isLt).2.2

/-- At the first point the two accumulators are the first block's contribution to the reset values, -/
theorem outs4_zero (c : Dev nD) (h : 0 < 25) :
    acc4 V c 0 h = k4_pay4 (F := Ideal) (gblk V c (pt4 0 h)) (xblk V c (pt4 0 h)) (k4_pay1 (F := Ideal))
    ∧ cnt4 V c 0 h = k4_pay5 (F := Ideal) (gblk V c (pt4 0 h)) (k4_pay2 (F := Ideal)) := by
  unfold acc4 cnt4
  rw [outsAt4_A V c (pt4 0 h) (Nat.zero_mod _) (by dsimp only; omega)]
  dsimp only [atPt]
  exact sout4_A_eq (F := Ideal) ..

/-- and at every later point the block's contribution to what they held. -/
theorem outs4_succ (c : Dev nD) (t : ℕ) (h : t + 1 < 25) :
    acc4 V c (t + 1) h = k4_pay4 (F := Ideal) (gblk V c (pt4 (t + 1) h)) (xblk V c (pt4 (t + 1) h)) (acc4 V c t (Nat.lt_of_succ_lt h))
    ∧ cnt4 V c (t + 1) h = k4_pay5 (F := Ideal) (gblk V c (pt4 (t + 1) h)) (cnt4 V c t (Nat.lt_of_succ_lt h)) := by
  unfold acc4 cnt4
  have h0 : ¬(pt4 (t + 1) h).val % 25 = 0 := by dsimp only; omega
  by_cases h1 : (pt4 (t + 1) h).val % 25 = 24
  · rw [outsAt4_C V c (pt4 (t + 1) h) h0 h1]
    dsimp only [atPt]
    exact (sout4_C_eq (F := Ideal) ..).1
  · rw [outsAt4_B V c (pt4 (t + 1) h) h0 h1]
    dsimp only [atPt]
    exact sout4_B_eq (F := Ideal) ..

abbrev t24 : Fin cfg4.N := pt4 24 (by decide)

theorem out4_last (c : Dev nD) :
    (outsAt4 V c t24.val t24.isLt).1 = k4_pay6 (F := Ideal) (acc4 V c 24 (by decide)) (cnt4 V c 24 (by decide)) (wblk V c t24) (bblk V c t24) := by
  have h0 : ¬t24.val % 25 = 0 := by decide
  have h1 : t24.val % 25 = 24 := by decide
  rw [(outs4_succ V c 23 (by decide)).1, (outs4_succ V c 23 (by decide)).2, outsAt4_C V c t24 h0 h1]
  dsimp only [atPt]
  exact (sout4_C_eq (F := Ideal) ..).2

abbrev result4 (c : Dev nD) : Buf (Elt Ideal) ((c : Thread nD τ).loc main_v30) := (outsAt4 V c t24.val t24.isLt).1

theorem hz4 : (fun a => win4_4.index t24 a * main_v30.ty.shape.size a) = fun _ => 0 := funext fun a => by fin_cases a <;> decide

/-- The output's block at the last point, the only one stored, is the whole array. -/
theorem flushed4_eq (c : Dev nD) (t : Fin cfg4.N) (hf : (cfg4.win 4).flush t = true) :
    (dat4 V c).flushed 4 t = ((cfg4.win 4).blk t).view.read (Elt Ideal) (result4 V c) := by
  have hN : cfg4.N = 25 := N_4
  have h24 : t.val = 24 := by have := (flush4_4 t).mp hf; have := t.isLt; omega
  obtain rfl : t = t24 := Fin.ext h24
  show (cfg4.win 4).cut (grid4.coords t24) ((dat4 V c).after 4 t24) = _
  rw [after4_4]
  exact (Memref.read_access_unit_zero (Elt Ideal) main_v30 hz4 (fun a => by rw [congrFun hz4 a]; simp) (result4 V c)).symm

theorem final4 (c : Dev nD) : (dat4 V c).arrAt 4 cfg4.N = result4 V c :=
  (dat4 V c).arrAt_eq_of_cover 4 _ (flushed4_eq V c) fun i => ⟨t24, (flush4_4 t24).mpr rfl, by
    show i ∈ ((View.whole main_v30).slice (win4_4.rect t24)).set
    rw [View.set_slice_whole]
    exact View.mem_set_unit_zero hz4 _ i⟩

theorem arr4_4_apply (c : Dev nD) (gid : Cert.Spec.IArr Cert.ReferenceIdeal.S50000) (fcb : Cert.Spec.Arr Cert.ReferenceIdeal.S1)
    (hg : ∀ n : Fin 50000, (V c (Pipeline.arrRef spec4 1) : S50000x1.Idx → BitVec 32) (ix2 n (0 : Fin 1)) = gid (ix1 n))
    (hb : (V c (Pipeline.arrRef spec4 3) : S1x1.Idx → EReal) (ix2 (0 : Fin 1) (0 : Fin 1)) = fcb (ix1 (0 : Fin 1)))
    (g : Fin 512) :
    result4 V c (ix2 g (0 : Fin 1)) = Cert.Spec.readout (xarr V c) gid (warr V c) fcb g := by
  obtain ⟨hs, hcn⟩ := pool_fold (xarr V c) gid (fun t h => gblk V c (pt4 t h)) (fun t h => xblk V c (pt4 t h))
    (fun t h r => (gblk_apply V c (pt4 t h) r (by show 2000 * t + r.val < 50000; omega)).trans (hg _))
    (fun t h r d => xblk_apply V c (pt4 t h) r d (by show 2000 * t + r.val < 50000; omega))
    (acc4 V c) (cnt4 V c) (fun h => (outs4_zero V c h).1) (fun t h => (outs4_succ V c t h).1) (fun h => (outs4_zero V c h).2) (fun t h => (outs4_succ V c t h).2) g
  show (outsAt4 V c t24.val t24.isLt).1 (ix2 g (0 : Fin 1)) = _
  rw [out4_last, pay6_apply, hcn, bblk_apply]
  unfold Cert.Spec.readout
  refine congrArg₂ (· + ·) (Finset.sum_congr rfl fun d _ => ?_) hb
  rw [hs d, wblk_apply]

theorem arr4_4 (c : Dev nD) (gid : Cert.Spec.IArr Cert.ReferenceIdeal.S50000) (fcb : Cert.Spec.Arr Cert.ReferenceIdeal.S1)
    (hg : ∀ n : Fin 50000, (V c (Pipeline.arrRef spec4 1) : S50000x1.Idx → BitVec 32) (ix2 n (0 : Fin 1)) = gid (ix1 n))
    (hb : (V c (Pipeline.arrRef spec4 3) : S1x1.Idx → EReal) (ix2 (0 : Fin 1) (0 : Fin 1)) = fcb (ix1 (0 : Fin 1))) :
    shapeCast S512 ((dat4 (F := Ideal) V c).arrAt 4 cfg4.N) shapeCasts_S512x1_S512 = Cert.Spec.pool (V c (Pipeline.arrRef spec4 0)) gid (V c (Pipeline.arrRef spec4 2)) fcb := by
  rw [final4]
  funext g'
  obtain ⟨g, rfl⟩ : ∃ g : Fin 512, g' = ix1 g := ⟨g' 0, eq_ix1 g'⟩
  have e : shapeCast S512 (result4 V c : S512x1.Idx → EReal) shapeCasts_S512x1_S512 (ix1 g)
      = (result4 V c : S512x1.Idx → EReal) (ix2 g (0 : Fin 1)) :=
    shapeCast_apply (s := S512x1) (t := S512) _ shapeCasts_S512x1_S512 (ix1 g) (ix2 g (0 : Fin 1)) (by
      show (S512x1.rowMajor (ix2 g (0 : Fin 1))).val = (S512.rowMajor (ix1 g)).val
      rw [Shape.rowMajor_val_two, Shape.rowMajor_val_one]; show g.val * 1 + 0 = g.val; omega)
  exact e.trans ((arr4_4_apply V c gid fcb hg hb g).trans (Cert.Spec.pool_apply (xarr V c) gid (warr V c) fcb g).symm)

end Cert.KernelIdeal.Hand

end
-- ==== Proof.KI.Value.lean ====
import proofs.«403104_j60447369724153_2_alg».proof.Proof.KI.Run
import proofs.«403104_j60447369724153_2_alg».proof.Proof.KI.Val0
import proofs.«403104_j60447369724153_2_alg».proof.Proof.KI.Val1
import proofs.«403104_j60447369724153_2_alg».proof.Proof.KI.Val2
import proofs.«403104_j60447369724153_2_alg».proof.Proof.KI.Val3
import proofs.«403104_j60447369724153_2_alg».proof.Proof.KI.Val4
import proofs.«403104_j60447369724153_2_alg».proof.Proof.Spec
import Idealize.ShloMosaic.Lib.StableHlo.Run
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Cert.Spec (edgeLin srcRows msgs segSum nodeAct pool)

variable (m : (ℓ : Loc nD τ sig) → Buf (Elt Ideal) ℓ) (ρ : Dev nD → PrngReg)

/-- A vector recast as a one-row matrix and read in that row is the vector. -/
theorem row {α : Type} {a : ℕ} {w : (⟨2, ![1, a]⟩ : Shape).Idx → α} {x : (⟨1, ![a]⟩ : Shape).Idx → α} {h}
    (e : w = shapeCast ⟨2, ![1, a]⟩ x h) (u : Fin 1) (i : Fin a) : w (ix2 u i) = x (ix1 i) := e ▸ shapeCast_a_1a_apply x h u i

section
variable (c : Dev nD)

abbrev E1 : Cert.Spec.Arr Cert.ReferenceIdeal.S600000x128 := edgeLin (m ((c : Thread nD τ).loc main_arg1)) (m ((c : Thread nD τ).loc main_arg5)) (m ((c : Thread nD τ).loc main_arg6))

abbrev X1 : Cert.Spec.Arr Cert.ReferenceIdeal.S50000x128 := nodeAct (segSum (m ((c : Thread nD τ).loc main_arg3)) (msgs (m ((c : Thread nD τ).loc main_arg0)) (m ((c : Thread nD τ).loc main_arg2)) (E1 m c))) (m ((c : Thread nD τ).loc main_arg7)) (m ((c : Thread nD τ).loc main_arg8))

abbrev E2 : Cert.Spec.Arr Cert.ReferenceIdeal.S600000x128 := edgeLin (E1 m c) (m ((c : Thread nD τ).loc main_arg9)) (m ((c : Thread nD τ).loc main_arg10))

abbrev X2 : Cert.Spec.Arr Cert.ReferenceIdeal.S50000x128 := nodeAct (segSum (m ((c : Thread nD τ).loc main_arg3)) (msgs (X1 m c) (m ((c : Thread nD τ).loc main_arg2)) (E2 m c))) (m ((c : Thread nD τ).loc main_arg11)) (m ((c : Thread nD τ).loc main_arg12))

theorem W1_v6 : W1 m ρ c (Proc.devRef .tc main_v6) = srcRows (m ((c : Thread nD τ).loc main_arg0)) (m ((c : Thread nD τ).loc main_arg2)) := by
  show StableHlo.after hostOps0 (W0 m ρ c) (Proc.devRef .tc main_v6) = _
  after_results
  rfl
theorem W1_v7 : W1 m ρ c (Proc.devRef .tc main_v7) = shapeCast S1x128 (m ((c : Thread nD τ).loc main_arg6)) shapeCasts_S128_S1x128 := by
  show StableHlo.after hostOps0 (W0 m ρ c) (Proc.devRef .tc main_v7) = _
  after_results
  rfl

theorem W2_v8_0 : W2 m ρ c (Proc.devRef .tc main_v8_0) = E1 m c := by
  refine (W2_arr m ρ c 4).trans ((arr0_4 (V1 m ρ) c (m ((c : Thread nD τ).loc main_arg6)) (row (W1_v7 m ρ c) 0)).trans ?_)
  rw [show V1 m ρ c (Pipeline.arrRef spec0 0) = _ from W1_arg m ρ c main_arg1 (by decide),
    show V1 m ρ c (Pipeline.arrRef spec0 2) = _ from W1_arg m ρ c main_arg5 (by decide)]
theorem W2_v8_1 : W2 m ρ c (Proc.devRef .tc main_v8_1) = msgs (m ((c : Thread nD τ).loc main_arg0)) (m ((c : Thread nD τ).loc main_arg2)) (E1 m c) := by
  refine (W2_arr m ρ c 5).trans ((arr0_5 (V1 m ρ) c (m ((c : Thread nD τ).loc main_arg6)) (row (W1_v7 m ρ c) 0)).trans ?_)
  rw [show V1 m ρ c (Pipeline.arrRef spec0 0) = _ from W1_arg m ρ c main_arg1 (by decide),
    show V1 m ρ c (Pipeline.arrRef spec0 2) = _ from W1_arg m ρ c main_arg5 (by decide),
    show V1 m ρ c (Pipeline.arrRef spec0 1) = _ from W1_v6 m ρ c]
  rfl

theorem W3_v11 : W3 m ρ c (Proc.devRef .tc main_v11) = segSum (m ((c : Thread nD τ).loc main_arg3)) (msgs (m ((c : Thread nD τ).loc main_arg0)) (m ((c : Thread nD τ).loc main_arg2)) (E1 m c)) := by
  show StableHlo.after hostOps1 (W2 m ρ c) (Proc.devRef .tc main_v11) = _
  after_results
  rw [W2_arg m ρ c main_arg3 (by decide), W2_v8_1 m ρ c]
  rfl
theorem W3_v12 : W3 m ρ c (Proc.devRef .tc main_v12) = shapeCast S1x128 (m ((c : Thread nD τ).loc main_arg8)) shapeCasts_S128_S1x128 := by
  show StableHlo.after hostOps1 (W2 m ρ c) (Proc.devRef .tc main_v12) = _
  after_results
  rw [W2_arg m ρ c main_arg8 (by decide)]
  rfl

theorem W4_v13 : W4 m ρ c (Proc.devRef .tc main_v13) = X1 m c := by
  refine (W4_arr m ρ c 3).trans ((arr1_3 (V3 m ρ) c (m ((c : Thread nD τ).loc main_arg8)) (row (W3_v12 m ρ c) 0)).trans ?_)
  rw [show V3 m ρ c (Pipeline.arrRef spec1 0) = _ from W3_v11 m ρ c,
    show V3 m ρ c (Pipeline.arrRef spec1 1) = _ from W3_arg m ρ c main_arg7 (by decide)]

theorem W5_v20 : W5 m ρ c (Proc.devRef .tc main_v20) = srcRows (X1 m c) (m ((c : Thread nD τ).loc main_arg2)) := by
  show StableHlo.after hostOps2 (W4 m ρ c) (Proc.devRef .tc main_v20) = _
  after_results
  rw [W4_arg m ρ c main_arg2 (by decide), W4_v13 m ρ c]
  rfl
theorem W5_v21 : W5 m ρ c (Proc.devRef .tc main_v21) = shapeCast S1x128 (m ((c : Thread nD τ).loc main_arg10)) shapeCasts_S128_S1x128 := by
  show StableHlo.after hostOps2 (W4 m ρ c) (Proc.devRef .tc main_v21) = _
  after_results
  rw [W4_arg m ρ c main_arg10 (by decide)]
  rfl
theorem W5_v8_0 : W5 m ρ c (Proc.devRef .tc main_v8_0) = E1 m c :=
  (StableHlo.after_of_writes_sub hostOps2 _ hostOps2_writes (by decide)).trans <| (W4_keep m ρ c main_v8_0 (by decide)).trans <|
  (StableHlo.after_of_writes_sub hostOps1 _ hostOps1_writes (by decide)).trans (W2_v8_0 m ρ c)

theorem W6_v22_1 : W6 m ρ c (Proc.devRef .tc main_v22_1) = msgs (X1 m c) (m ((c : Thread nD τ).loc main_arg2)) (E2 m c) := by
  refine (W6_arr m ρ c 5).trans ((arr2_5 (V5 m ρ) c (m ((c : Thread nD τ).loc main_arg10)) (row (W5_v21 m ρ c) 0)).trans ?_)
  rw [show V5 m ρ c (Pipeline.arrRef spec2 0) = _ from W5_v8_0 m ρ c,
    show V5 m ρ c (Pipeline.arrRef spec2 2) = _ from W5_arg m ρ c main_arg9 (by decide),
    show V5 m ρ c (Pipeline.arrRef spec2 1) = _ from W5_v20 m ρ c]
  rfl

theorem W7_v25 : W7 m ρ c (Proc.devRef .tc main_v25) = segSum (m ((c : Thread nD τ).loc main_arg3)) (msgs (X1 m c) (m ((c : Thread nD τ).loc main_arg2)) (E2 m c)) := by
  show StableHlo.after hostOps3 (W6 m ρ c) (Proc.devRef .tc main_v25) = _
  after_results
  rw [W6_arg m ρ c main_arg3 (by decide), W6_v22_1 m ρ c]
  rfl
theorem W7_v26 : W7 m ρ c (Proc.devRef .tc main_v26) = shapeCast S1x128 (m ((c : Thread nD τ).loc main_arg12)) shapeCasts_S128_S1x128 := by
  show StableHlo.after hostOps3 (W6 m ρ c) (Proc.devRef .tc main_v26) = _
  after_results
  rw [W6_arg m ρ c main_arg12 (by decide)]
  rfl

theorem W8_v27 : W8 m ρ c (Proc.devRef .tc main_v27) = X2 m c := by
  refine (W8_arr m ρ c 3).trans ((arr3_3 (V7 m ρ) c (m ((c : Thread nD τ).loc main_arg12)) (row (W7_v26 m ρ c) 0)).trans ?_)
  rw [show V7 m ρ c (Pipeline.arrRef spec3 0) = _ from W7_v25 m ρ c,
    show V7 m ρ c (Pipeline.arrRef spec3 1) = _ from W7_arg m ρ c main_arg11 (by decide)]

theorem W9_v28 (n : Fin 50000) : (W9 m ρ c (Proc.devRef .tc main_v28) : S50000x1.Idx → BitVec 32) (ix2 n (0 : Fin 1)) = (m ((c : Thread nD τ).loc main_arg4)) (ix1 n) := by
  have e : W9 m ρ c (Proc.devRef .tc main_v28) = shapeCast S50000x1 (m ((c : Thread nD τ).loc main_arg4)) shapeCasts_S50000_S50000x1 := by
    show StableHlo.after hostOps4 (W8 m ρ c) (Proc.devRef .tc main_v28) = _
    after_results
    rw [W8_arg m ρ c main_arg4 (by decide)]
    rfl
  rw [e]
  refine shapeCast_apply (s := S50000) (t := S50000x1) _ _ (ix2 n (0 : Fin 1)) (ix1 n) ?_
  rw [Shape.rowMajor_val_two, Shape.rowMajor_val_one]
  show n.val = n.val * 1 + 0
  omega
theorem W9_v29 : W9 m ρ c (Proc.devRef .tc main_v29) = shapeCast S1x1 (m ((c : Thread nD τ).loc main_arg14)) shapeCasts_S1_S1x1 := by
  show StableHlo.after hostOps4 (W8 m ρ c) (Proc.devRef .tc main_v29) = _
  after_results
  rw [W8_arg m ρ c main_arg14 (by decide)]
  rfl
theorem W9_v27 : W9 m ρ c (Proc.devRef .tc main_v27) = X2 m c :=
  (StableHlo.after_of_writes_sub hostOps4 _ hostOps4_writes (by decide)).trans (W8_v27 m ρ c)

theorem result_eq : W11 m ρ c (Proc.devRef .tc main_v31)
    = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : W11 m ρ c (Proc.devRef .tc main_v31) = shapeCast S512 (W10 m ρ c (Proc.devRef .tc main_v30)) shapeCasts_S512x1_S512 := by
    show StableHlo.after hostOps5 (W10 m ρ c) (Proc.devRef .tc main_v31) = _
    after_results
    rfl
  rw [e, W10_arr m ρ c 4]
  refine (arr4_4 (V9 m ρ) c (m ((c : Thread nD τ).loc main_arg4)) (m ((c : Thread nD τ).loc main_arg14)) (W9_v28 m ρ c) (row (W9_v29 m ρ c) 0 0)).trans ?_
  rw [show V9 m ρ c (Pipeline.arrRef spec4 0) = _ from W9_v27 m ρ c,
    show V9 m ρ c (Pipeline.arrRef spec4 2) = _ from W9_arg m ρ c main_arg13 (by decide)]
  rfl

end

end Cert.KernelIdeal.Hand

end
-- ==== Proof.lean ====
import proofs.«403104_j60447369724153_2_alg».proof.Defs
import proofs.«403104_j60447369724153_2_alg».proof.Proof.Gen.Kernel
import proofs.«403104_j60447369724153_2_alg».proof.Proof.Gen.KernelIdeal
import proofs.«403104_j60447369724153_2_alg».proof.Proof.Gen.ReferenceIdeal
import proofs.«403104_j60447369724153_2_alg».proof.Proof.Gen.Pre_finite_inputs
import proofs.«403104_j60447369724153_2_alg».proof.Proof.Gen.ReferenceIdeal.Run
import proofs.«403104_j60447369724153_2_alg».proof.Proof.KI.Run
import proofs.«403104_j60447369724153_2_alg».proof.Proof.KI.Value
import proofs.«403104_j60447369724153_2_alg».proof.Proof.Spec
import Idealize.ShloMosaic.Lib.Tactic

noncomputable section

namespace Cert.Proof

open Idealize.ShloMosaic Idealize.ShloMosaic.TcCoe Idealize.SL.Sem Idealize.ShloMosaic.Tactic

theorem frame_pi : Cert.frame_KernelIdeal := fun m ρ _ => Cert.KernelIdeal.Hand.frame m ρ

-- Both kernel programs are one text, and its frame is proved at every float instance: one proof serves both.
theorem frame_p : Cert.frame_Kernel := fun m ρ _ =>
  cast (by sl_kernel_rfl) (Cert.KernelIdeal.Hand.frame (F := Bits) m ρ)

theorem frame_ri : Cert.frame_ReferenceIdeal := fun m ρ _ =>
  (θ_run Cert.ReferenceIdeal.defs _ _).mono (fun _ h c => (h c).2) (Cert.ReferenceIdeal.Value.run (F := Ideal) m ρ)

-- Both exact programs end with the network of their arguments in the result.
theorem algebraic : Cert.algebraic_KernelIdeal_ReferenceIdeal := by
  intro m ρ m' ρ' _ hagree
  refine ⟨fun c => Cert.KernelIdeal.Hand.W11 m ρ c (Proc.devRef .tc Cert.KernelIdeal.main_v31), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.Spec.ref_eq, h0, h1, h2, h3, h4, h5, h6, h7, h8, h9, h10, h11, h12, h13, h14]
  exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
